-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v60)) (v3 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v60) = v2 c
          ∧ r.2.mem ((c.tc : Thread Cert.KernelIdeal.nD Cert.KernelIdeal.τ).loc Cert.KernelIdeal.main_v75) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S100000 : Shape := ⟨1, ![100000]⟩
abbrev S7x64 : Shape := ⟨2, ![7, 64]⟩
abbrev S64 : Shape := ⟨1, ![64]⟩
abbrev S64x32 : Shape := ⟨2, ![64, 32]⟩
abbrev S32 : Shape := ⟨1, ![32]⟩
abbrev S100000x32 : Shape := ⟨2, ![100000, 32]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S100000x32 : S_.BroadcastsInDim S100000x32 (![] : Fin 0 → Fin S100000x32.rank)
  reducesTo_S100000x32_S_d0_1 : S100000x32.ReducesTo [0, 1] S_

variable [Facts]

def fn_part2 {F : FTy → Type} [FloatOps F] (main_arg9 : FVec F S100000x32 .f32) (main_v33 : IVec S_ 1) : IVec S_ 1 :=
  let main_v34 : FVec F S100000x32 .f32 := Host.absf main_arg9
  let main_cst_12 : FVec F S_ .f32 := constant S_ .f32 0x7F800000#32
  let main_v35 : FVec F S100000x32 .f32 := broadcastInDim S100000x32 ![] bcast_S_S100000x32 main_cst_12
  let main_v36 : IVec S100000x32 1 := cmpf .olt main_v34 main_v35
  let main_c_13 : IVec S_ 1 := constantI S_ 1 1#1
  let main_v37 : IVec S_ 1 := (fun x v => Host.reduce IntOp.andi x v reducesTo_S100000x32_S_d0_1 h_S_) main_v36 main_c_13
  let main_v38 : IVec S_ 1 := andi main_v33 main_v37
  main_v38

def fn_part1 {F : FTy → Type} [FloatOps F] (main_arg6 : FVec F S32 .f32) (main_arg7 : FVec F S64x32 .f32) (main_arg8 : FVec F S32 .f32) (main_arg9 : FVec F S100000x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_v33

def fn {F : FTy → Type} [FloatOps F] (main_arg0 : FVec F S100000x7 .f32) (main_arg1 : IVec S2x1600000 32) (main_arg2 : IVec S100000 32) (main_arg3 : FVec F S7x64 .f32) (main_arg4 : FVec F S64 .f32) (main_arg5 : FVec F S64x32 .f32) (main_arg6 : FVec F S32 .f32) (main_arg7 : FVec F S64x32 .f32) (main_arg8 : FVec F S32 .f32) (main_arg9 : FVec F S100000x32 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S7x64 .f32 := Host.absf main_arg3
  let main_cst_0 : FVec F S_ .f32 := constant S_ .f32 0x7F800000#32
  let main_v5 : FVec F S7x64 .f32 := broadcastInDim S7x64 ![] bcast_S_S7x64 main_cst_0
  let main_v6 : IVec S7x64 1 := cmpf .olt main_v4 main_v5
  let main_c_1 : IVec S_ 1 := constantI S_ 1 1#1
  let main_v7 : IVec S_ 1 := (fun x v => Host.reduce IntOp.andi x v reducesTo_S7x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_arg9 main_v13 main_v16
-- ==== Kernel.lean ====
abbrev S100000x7 : Shape := ⟨2, ![100000, 7]⟩
abbrev S2x1600000 : Shape := ⟨2, ![2, 1600000]⟩
abbrev S100000 : Shape := ⟨1, ![100000]⟩
abbrev S7x64 : Shape := ⟨2, ![7, 64]⟩
abbrev S64 : Shape := ⟨1, ![64]⟩
abbrev S64x32 : Shape := ⟨2, ![64, 32]⟩
abbrev S32 : Shape := ⟨1, ![32]⟩
abbrev S100000x32 : Shape := ⟨2, ![100000, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S20000x7 : Shape := ⟨2, ![20000, 7]⟩
abbrev S20000x64 : Shape := ⟨2, ![20000, 64]⟩
abbrev S1600000x64 : Shape := ⟨2, ![1600000, 64]⟩
abbrev S1x64 : Shape := ⟨2, ![1, 64]⟩
abbrev S20000x1 : Shape := ⟨2, ![20000, 1]⟩
abbrev S64x7 : Shape := ⟨2, ![64, 7]⟩
abbrev S64x1 : Shape := ⟨2, ![64, 1]⟩
abbrev S20000x32 : Shape := ⟨2, ![20000, 32]⟩
abbrev S1600000x32 : Shape := ⟨2, ![1600000, 32]⟩
abbrev S1x32 : Shape := ⟨2, ![1, 32]⟩

abbrev nBuf : Space → Nat
  | .hbm => 103
  | .vmem => 57
  | .smem => 0
  | _ => 0

abbrev bufTy : (tb : Table) → Fin (tcTables nBuf tb) → BufTy
  | .hbm, ⟨0, _⟩ => ⟨S100000x7, .f32⟩
  | .hbm, ⟨1, _⟩ => ⟨S2x1600000, .i32⟩
  | .hbm, ⟨2, _⟩ => ⟨S100000, .i32⟩
  | .hbm, ⟨3, _⟩ => ⟨S7x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32, .f32⟩
  | .hbm, ⟨9, _⟩ => ⟨S100000x32, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S1600000x1, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x1, .i32⟩
  | .hbm, ⟨65, _⟩ => ⟨S64x7, .f32⟩
  | .hbm, ⟨66, _⟩ => ⟨S100000x32, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x32, .f32⟩
  | .hbm, ⟨76, _⟩ => ⟨S1600000x32, .f32⟩
  | .hbm, ⟨77, _⟩ => ⟨S1600000x32, .f32⟩
  | .hbm, ⟨78, _⟩ => ⟨S_, .f32⟩
  | .hbm, ⟨79, _⟩ => ⟨S100000x32, .f32⟩
  | .hbm, ⟨80, _⟩ => ⟨S1600000x1, .i32⟩
  | .hbm, ⟨81, _⟩ => ⟨S100000x32, .f32⟩
  | .hbm, ⟨82, _⟩ => ⟨S1x32, .f32⟩
  | .hbm, ⟨83, _⟩ => ⟨S100000x32, .f32⟩
  | .hbm, ⟨84, _⟩ => ⟨S100000x32, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x32, .f32⟩
  | .hbm, ⟨94, _⟩ => ⟨S1600000x32, .f32⟩
  | .hbm, ⟨95, _⟩ => ⟨S1600000x32, .f32⟩
  | .hbm, ⟨96, _⟩ => ⟨S_, .f32⟩
  | .hbm, ⟨97, _⟩ => ⟨S100000x32, .f32⟩
  | .hbm, ⟨98, _⟩ => ⟨S1600000x1, .i32⟩
  | .hbm, ⟨99, _⟩ => ⟨S100000x32, .f32⟩
  | .hbm, ⟨100, _⟩ => ⟨S1x32, .f32⟩
  | .hbm, ⟨101, _⟩ => ⟨S100000x32, .f32⟩
  | .hbm, ⟨102, _⟩ => ⟨S100000x32, .f32⟩
  | .local _ .vmem, ⟨0, _⟩ => ⟨S20000x7, .f32⟩
  | .local _ .vmem, ⟨1, _⟩ => ⟨S20000x7, .f32⟩
  | .local _ .vmem, ⟨2, _⟩ => ⟨S7x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S20000x64, .f32⟩
  | .local _ .vmem, ⟨8, _⟩ => ⟨S20000x64, .f32⟩
  | .local _ .vmem, ⟨9, _⟩ => ⟨S20000x1, .f32⟩
  | .local _ .vmem, ⟨10, _⟩ => ⟨S20000x1, .f32⟩
  | .local _ .vmem, ⟨11, _⟩ => ⟨S1x64, .f32⟩
  | .local _ .vmem, ⟨12, _⟩ => ⟨S20000x64, .f32⟩
  | .local _ .vmem, ⟨13, _⟩ => ⟨S20000x64, .f32⟩
  | .local _ .vmem, ⟨14, _⟩ => ⟨S20000x7, .f32⟩
  | .local _ .vmem, ⟨15, _⟩ => ⟨S20000x7, .f32⟩
  | .local _ .vmem, ⟨16, _⟩ => ⟨S20000x1, .i32⟩
  | .local _ .vmem, ⟨17, _⟩ => ⟨S20000x1, .i32⟩
  | .local _ .vmem, ⟨18, _⟩ => ⟨S64x7, .f32⟩
  | .local _ .vmem, ⟨19, _⟩ => ⟨S64x7, .f32⟩
  | .local _ .vmem, ⟨20, _⟩ => ⟨S64x1, .f32⟩
  | .local _ .vmem, ⟨21, _⟩ => ⟨S20000x64, .f32⟩
  | .local _ .vmem, ⟨22, _⟩ => ⟨S20000x64, .f32⟩
  | .local _ .vmem, ⟨23, _⟩ => ⟨S64x32, .f32⟩
  | .local _ .vmem, ⟨24, _⟩ => ⟨S20000x32, .f32⟩
  | .local _ .vmem, ⟨25, _⟩ => ⟨S20000x32, .f32⟩
  | .local _ .vmem, ⟨26, _⟩ => ⟨S20000x32, .f32⟩
  | .local _ .vmem, ⟨27, _⟩ => ⟨S20000x32, .f32⟩
  | .local _ .vmem, ⟨28, _⟩ => ⟨S20000x32, .f32⟩
  | .local _ .vmem, ⟨29, _⟩ => ⟨S20000x32, .f32⟩
  | .local _ .vmem, ⟨30, _⟩ => ⟨S20000x1, .f32⟩
  | .local _ .vmem, ⟨31, _⟩ => ⟨S20000x1, .f32⟩
  | .local _ .vmem, ⟨32, _⟩ => ⟨S1x32, .f32⟩
  | .local _ .vmem, ⟨33, _⟩ => ⟨S20000x32, .f32⟩
  | .local _ .vmem, ⟨34, _⟩ => ⟨S20000x32, .f32⟩
  | .local _ .vmem, ⟨35, _⟩ => ⟨S20000x64, .f32⟩
  | .local _ .vmem, ⟨36, _⟩ => ⟨S20000x64, .f32⟩
  | .local _ .vmem, ⟨37, _⟩ => ⟨S64x32, .f32⟩
  | .local _ .vmem, ⟨38, _⟩ => ⟨S20000x32, .f32⟩
  | .local _ .vmem, ⟨39, _⟩ => ⟨S20000x32, .f32⟩
  | .local _ .vmem, ⟨40, _⟩ => ⟨S20000x32, .f32⟩
  | .local _ .vmem, ⟨41, _⟩ => ⟨S20000x32, .f32⟩
  | .local _ .vmem, ⟨42, _⟩ => ⟨S20000x32, .f32⟩
  | .local _ .vmem, ⟨43, _⟩ => ⟨S20000x32, .f32⟩
  | .local _ .vmem, ⟨44, _⟩ => ⟨S20000x1, .f32⟩
  | .local _ .vmem, ⟨45, _⟩ => ⟨S20000x1, .f32⟩
  | .local _ .vmem, ⟨46, _⟩ => ⟨S1x32, .f32⟩
  | .local _ .vmem, ⟨47, _⟩ => ⟨S20000x32, .f32⟩
  | .local _ .vmem, ⟨48, _⟩ => ⟨S20000x32, .f32⟩
  | .local _ .vmem, ⟨49, _⟩ => ⟨S20000x32, .f32⟩
  | .local _ .vmem, ⟨50, _⟩ => ⟨S20000x32, .f32⟩
  | .local _ .vmem, ⟨51, _⟩ => ⟨S20000x32, .f32⟩
  | .local _ .vmem, ⟨52, _⟩ => ⟨S20000x32, .f32⟩
  | .local _ .vmem, ⟨53, _⟩ => ⟨S20000x32, .f32⟩
  | .local _ .vmem, ⟨54, _⟩ => ⟨S20000x32, .f32⟩
  | .local _ .vmem, ⟨55, _⟩ => ⟨S20000x32, .f32⟩
  | .local _ .vmem, ⟨56, _⟩ => ⟨S20000x32, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_scratch0 : Ref sig .tc := ⟨.vmem, 19, rfl⟩
abbrev cc2_scratch1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg4_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc7_stg3_0 : Ref sig .tc := ⟨.vmem, 55, rfl⟩
abbrev cc7_stg3_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem4_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem4_0 : DmaSem sig := 45
abbrev cc6_sem4_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem3_1 : DmaSem sig := 54

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S20000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def k2_cond2 (i : grid2.Coords) : BitVec 1 :=
  let arg0 : BitVec 32 := BitVec.ofNat 32 (i 0).val
  let c4_i32 : BitVec 32 := 4#32
  let v24 : BitVec 1 := Scalar.cmpi .eq arg0 c4_i32
  let v25 : BitVec 32 := Scalar.extui v24
  let c0_i32_14 : BitVec 32 := 0#32
  let v26 : BitVec 1 := Scalar.cmpi .ne v25 c0_i32_14
  v26

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S20000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S20000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S20000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S20000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S20000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S20000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S20000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S20000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S20000x32 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S20000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S20000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S20000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S20000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S20000x7_S20000x7_0_0 : ∀ a, (![0, 0] : Fin 2 → Nat) a + S20000x7.size a ≤ S20000x7.size a
  h_S20000x7 : 0 < S20000x7.numel
  inb_S7x64_S7x64_0_0 : ∀ a, (![0, 0] : Fin 2 → Nat) a + S7x64.size a ≤ S7x64.size a
  h_S7x64 : 0 < S7x64.numel
  inb_S20000x64_S20000x64_0_0 : ∀ a, (![0, 0] : Fin 2 → Nat) a + S20000x64.size a ≤ S20000x64.size a
  h_S20000x64 : 0 < S20000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S20000x64_S20000x64 : S20000x64.ShapeCasts S20000x64
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x64 : S20000x1.Broadcasts S20000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S64x7_S64x7_0_0 : ∀ a, (![0, 0] : Fin 2 → Nat) a + S64x7.size a ≤ S64x7.size a
  h_S64x7 : 0 < S64x7.numel
  shapeCasts_S64x7_S64x7 : S64x7.ShapeCasts S64x7
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S20000x64_d1_w32 : S20000x64.Iotas .tc 32 [1]
  natLt_1_32 : 1 < 32
  broadcasts_S64x1_S64x7 : S64x1.Broadcasts S64x7
  inb_S64x32_S64x32_0_0 : ∀ a, (![0, 0] : Fin 2 → Nat) a + S64x32.size a ≤ S64x32.size a
  h_S64x32 : 0 < S64x32.numel
  inb_S20000x32_S20000x32_0_0 : ∀ a, (![0, 0] : Fin 2 → Nat) a + S20000x32.size a ≤ S20000x32.size a
  h_S20000x32 : 0 < S20000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S20000x32_S20000x32 : S20000x32.ShapeCasts S20000x32
  broadcasts_S20000x1_S20000x32 : S20000x1.Broadcasts S20000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S20000x7_S7x64_S20000x64_1_0_0_1_n_n_wf : DotDims.WF S20000x7 S7x64 S20000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S20000x64_S20000x7_S64x7_0_0_1_1_n_n_wf : DotDims.WF S20000x64 S20000x7 S64x7 [0] [0] [1] [1] [] []
  dot_S20000x64_S20000x1_S64x1_0_0_1_1_n_n_wf : DotDims.WF S20000x64 S20000x1 S64x1 [0] [0] [1] [1] [] []
  dot_S20000x64_S64x32_S20000x32_1_0_0_1_n_n_wf : DotDims.WF S20000x64 S64x32 S20000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x7.size a ≤ S100000x7.size a
  hwx0_0 : ∀ i : grid0.Coords, EltTy.bits .f32 = 32 ∨ (Rect.block (s := S100000x7) S20000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x64.size a ≤ S7x64.size a
  hwx0_1 : ∀ i : grid0.Coords, EltTy.bits .f32 = 32 ∨ (Rect.block (s := S7x64) S7x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S100000x64.size a
  hwx0_2 : ∀ i : grid0.Coords, EltTy.bits .f32 = 32 ∨ (Rect.block (s := S100000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S100000x64.size a
  hwx1_1 : ∀ i : grid1.Coords, EltTy.bits .f32 = 32 ∨ (Rect.block (s := S100000x64) S20000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x1.size a ≤ S100000x1.size a
  hwx1_2 : ∀ i : grid1.Coords, EltTy.bits .f32 = 32 ∨ (Rect.block (s := S100000x1) S20000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S20000x64.size a ≤ S100000x64.size a
  hwx1_4 : ∀ i : grid1.Coords, EltTy.bits .f32 = 32 ∨ (Rect.block (s := S100000x64) S20000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x7.size a ≤ S100000x7.size a
  hwx2_0 : ∀ i : grid2.Coords, EltTy.bits .f32 = 32 ∨ (Rect.block (s := S100000x7) S20000x7.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x1.size a ≤ S100000x1.size a
  hwx2_1 : ∀ i : grid2.Coords, EltTy.bits .i32 = 32 ∨ (Rect.block (s := S100000x1) S20000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x7.size a ≤ S64x7.size a
  hwx2_2 : ∀ i : grid2.Coords, EltTy.bits .f32 = 32 ∨ (Rect.block (s := S64x7) S64x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S100000x64.size a
  hwx3_0 : ∀ i : grid3.Coords, EltTy.bits .f32 = 32 ∨ (Rect.block (s := S100000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x32.size a ≤ S100000x32.size a
  hwx3_2 : ∀ i : grid3.Coords, EltTy.bits .f32 = 32 ∨ (Rect.block (s := S100000x32) S20000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x32.size a ≤ S100000x32.size a
  hwx4_0 : ∀ i : grid4.Coords, EltTy.bits .f32 = 32 ∨ (Rect.block (s := S100000x32) S20000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S20000x32.size a ≤ S100000x32.size a
  hwx4_1 : ∀ i : grid4.Coords, EltTy.bits .f32 = 32 ∨ (Rect.block (s := S100000x32) S20000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S20000x1.size a ≤ S100000x1.size a
  hwx4_2 : ∀ i : grid4.Coords, EltTy.bits .f32 = 32 ∨ (Rect.block (s := S100000x1) S20000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S20000x32.size a ≤ S100000x32.size a
  hwx4_4 : ∀ i : grid4.Coords, EltTy.bits .f32 = 32 ∨ (Rect.block (s := S100000x32) S20000x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x64.size a ≤ S100000x64.size a
  hwx5_0 : ∀ i : grid5.Coords, EltTy.bits .f32 = 32 ∨ (Rect.block (s := S100000x64) S20000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x32.size a ≤ S100000x32.size a
  hwx5_2 : ∀ i : grid5.Coords, EltTy.bits .f32 = 32 ∨ (Rect.block (s := S100000x32) S20000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S20000x32.size a ≤ S100000x32.size a
  hwx6_0 : ∀ i : grid6.Coords, EltTy.bits .f32 = 32 ∨ (Rect.block (s := S100000x32) S20000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S20000x32.size a ≤ S100000x32.size a
  hwx6_1 : ∀ i : grid6.Coords, EltTy.bits .f32 = 32 ∨ (Rect.block (s := S100000x32) S20000x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S20000x1.size a ≤ S100000x1.size a
  hwx6_2 : ∀ i : grid6.Coords, EltTy.bits .f32 = 32 ∨ (Rect.block (s := S100000x1) S20000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x32.size a ≤ S1x32.size a
  hwx6_3 : ∀ i : grid6.Coords, EltTy.bits .f32 = 32 ∨ (Rect.block (s := S1x32) S1x32.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S20000x32.size a ≤ S100000x32.size a
  hwx6_4 : ∀ i : grid6.Coords, EltTy.bits .f32 = 32 ∨ (Rect.block (s := S100000x32) S20000x32.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S20000x32.size a ≤ S100000x32.size a
  hwx7_0 : ∀ i : grid7.Coords, EltTy.bits .f32 = 32 ∨ (Rect.block (s := S100000x32) S20000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S20000x32.size a ≤ S100000x32.size a
  hwx7_1 : ∀ i : grid7.Coords, EltTy.bits .f32 = 32 ∨ (Rect.block (s := S100000x32) S20000x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S20000x32.size a ≤ S100000x32.size a
  hwx7_2 : ∀ i : grid7.Coords, EltTy.bits .f32 = 32 ∨ (Rect.block (s := S100000x32) S20000x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S20000x32.size a ≤ S100000x32.size a
  hwx7_3 : ∀ i : grid7.Coords, EltTy.bits .f32 = 32 ∨ (Rect.block (s := S100000x32) S20000x32.size (cc7_transform_3 i) (hinb7_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S20000x7_S7x64_S20000x64_1_0_0_1_n_n : DotDims S20000x7 S7x64 S20000x64 where
  lhsContracting := [1]
  rhsContracting := [0]
  lhsNonContracting := [0]
  rhsNonContracting := [1]
  lhsBatch := []
  rhsBatch := []
  wf := dot_S20000x7_S7x64_S20000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S20000x64_S20000x7_S64x7_0_0_1_1_n_n : DotDims S20000x64 S20000x7 S64x7 where
  lhsContracting := [0]
  rhsContracting := [0]
  lhsNonContracting := [1]
  rhsNonContracting := [1]
  lhsBatch := []
  rhsBatch := []
  wf := dot_S20000x64_S20000x7_S64x7_0_0_1_1_n_n_wf
def dot_S20000x64_S20000x1_S64x1_0_0_1_1_n_n : DotDims S20000x64 S20000x1 S64x1 where
  lhsContracting := [0]
  rhsContracting := [0]
  lhsNonContracting := [1]
  rhsNonContracting := [1]
  lhsBatch := []
  rhsBatch := []
  wf := dot_S20000x64_S20000x1_S64x1_0_0_1_1_n_n_wf
def dot_S20000x64_S64x32_S20000x32_1_0_0_1_n_n : DotDims S20000x64 S64x32 S20000x32 where
  lhsContracting := [1]
  rhsContracting := [0]
  lhsNonContracting := [0]
  rhsNonContracting := [1]
  lhsBatch := []
  rhsBatch := []
  wf := dot_S20000x64_S64x32_S20000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S20000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S20000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S20000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S20000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S20000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S64x7.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v43) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S20000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S20000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S20000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S20000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v59) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S20000x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v43) S20000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S64x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S20000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v73) S20000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v61) S20000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S20000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v74) S1x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v75) S20000x32.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_arg9) S20000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v60) S20000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v75) S20000x32.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v76) S20000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x7 : Shape := ⟨2, ![100000, 7]⟩
abbrev S2x1600000 : Shape := ⟨2, ![2, 1600000]⟩
abbrev S100000 : Shape := ⟨1, ![100000]⟩
abbrev S7x64 : Shape := ⟨2, ![7, 64]⟩
abbrev S64 : Shape := ⟨1, ![64]⟩
abbrev S64x32 : Shape := ⟨2, ![64, 32]⟩
abbrev S32 : Shape := ⟨1, ![32]⟩
abbrev S100000x32 : Shape := ⟨2, ![100000, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S64x7 : Shape := ⟨2, ![64, 7]⟩
abbrev S64x1 : Shape := ⟨2, ![64, 1]⟩
abbrev S1600000x32 : Shape := ⟨2, ![1600000, 32]⟩
abbrev S1x32 : Shape := ⟨2, ![1, 32]⟩

abbrev nBuf : Space → Nat
  | .hbm => 184
  | .vmem => 0
  | .smem => 0
  | _ => 0

abbrev hbmTy0_0 (i : Nat) : BufTy := match i % 128 with
  | 0 => ⟨S100000x7, .f32⟩
  | 1 => ⟨S2x1600000, .i32⟩
  | 2 => ⟨S100000, .i32⟩
  | 3 => ⟨S7x64, .f32⟩
  | 4 => ⟨S64, .f32⟩
  | 5 => ⟨S64x32, .f32⟩
  | 6 => ⟨S32, .f32⟩
  | 7 => ⟨S64x32, .f32⟩
  | 8 => ⟨S32, .f32⟩
  | 9 => ⟨S100000x32, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000, .f32⟩
  | 61 => ⟨S100000x1, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S_, .f32⟩
  | 72 => ⟨S100000, .f32⟩
  | 73 => ⟨S_, .f32⟩
  | 74 => ⟨S64, .f32⟩
  | 75 => ⟨S100000x1, .i32⟩
  | 76 => ⟨S64, .f32⟩
  | 77 => ⟨S_, .f32⟩
  | 78 => ⟨S64x7, .f32⟩
  | 79 => ⟨S100000x1, .i32⟩
  | 80 => ⟨S64x7, .f32⟩
  | 81 => ⟨S_, .f32⟩
  | 82 => ⟨S64, .f32⟩
  | 83 => ⟨S64, .f32⟩
  | 84 => ⟨S64x1, .f32⟩
  | 85 => ⟨S64x7, .f32⟩
  | 86 => ⟨S64x7, .f32⟩
  | 87 => ⟨S100000x32, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .f32⟩
  | 106 => ⟨S1600000, .f32⟩
  | 107 => ⟨S1600000x1, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x32, .f32⟩
  | 117 => ⟨S1600000x32, .f32⟩
  | 118 => ⟨S1600000x32, .f32⟩
  | 119 => ⟨S_, .f32⟩
  | 120 => ⟨S100000x32, .f32⟩
  | 121 => ⟨S1600000x1, .i32⟩
  | 122 => ⟨S100000x32, .f32⟩
  | 123 => ⟨S100000, .f32⟩
  | 124 => ⟨S100000x1, .f32⟩
  | 125 => ⟨S100000x32, .f32⟩
  | 126 => ⟨S100000x32, .f32⟩
  | 127 => ⟨S100000x32, .f32⟩
  | _ => ⟨S100000x7, .f32⟩

abbrev hbmTy0_1 (i : Nat) : BufTy := match i % 128 with
  | 0 => ⟨S1x32, .f32⟩
  | 1 => ⟨S100000x32, .f32⟩
  | 2 => ⟨S100000x32, .f32⟩
  | 3 => ⟨S_, .f32⟩
  | 4 => ⟨S100000x32, .f32⟩
  | 5 => ⟨S100000x32, .f32⟩
  | 6 => ⟨S100000x32, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000, .f32⟩
  | 25 => ⟨S1600000, .f32⟩
  | 26 => ⟨S1600000x1, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x32, .f32⟩
  | 36 => ⟨S1600000x32, .f32⟩
  | 37 => ⟨S1600000x32, .f32⟩
  | 38 => ⟨S_, .f32⟩
  | 39 => ⟨S100000x32, .f32⟩
  | 40 => ⟨S1600000x1, .i32⟩
  | 41 => ⟨S100000x32, .f32⟩
  | 42 => ⟨S100000, .f32⟩
  | 43 => ⟨S100000x1, .f32⟩
  | 44 => ⟨S100000x32, .f32⟩
  | 45 => ⟨S100000x32, .f32⟩
  | 46 => ⟨S100000x32, .f32⟩
  | 47 => ⟨S1x32, .f32⟩
  | 48 => ⟨S100000x32, .f32⟩
  | 49 => ⟨S100000x32, .f32⟩
  | 50 => ⟨S_, .f32⟩
  | 51 => ⟨S100000x32, .f32⟩
  | 52 => ⟨S100000x32, .f32⟩
  | 53 => ⟨S100000x32, .f32⟩
  | 54 => ⟨S100000x32, .f32⟩
  | 55 => ⟨S100000x32, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_16 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_18 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call1_cst : Ref sig .tc := ⟨.hbm, 131, rfl⟩
abbrev main_call1_v0 : Ref sig .tc := ⟨.hbm, 132, rfl⟩
abbrev main_v98 : Ref sig .tc := ⟨.hbm, 133, rfl⟩
abbrev main_v99 : Ref sig .tc := ⟨.hbm, 134, rfl⟩
abbrev main_c_19 : Ref sig .tc := ⟨.hbm, 135, rfl⟩
abbrev main_v100 : Ref sig .tc := ⟨.hbm, 136, rfl⟩
abbrev main_v101 : Ref sig .tc := ⟨.hbm, 137, rfl⟩
abbrev main_c_20 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_21 : Ref sig .tc := ⟨.hbm, 144, rfl⟩
abbrev main_v107 : Ref sig .tc := ⟨.hbm, 145, rfl⟩
abbrev main_v108 : Ref sig .tc := ⟨.hbm, 146, rfl⟩
abbrev main_c_22 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_c_23 : Ref sig .tc := ⟨.hbm, 155, rfl⟩
abbrev main_v116 : Ref sig .tc := ⟨.hbm, 156, rfl⟩
abbrev main_v117 : Ref sig .tc := ⟨.hbm, 157, rfl⟩
abbrev main_c_24 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_25 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_call2_cst : Ref sig .tc := ⟨.hbm, 178, rfl⟩
abbrev main_call2_v0 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S64x7 : S_.BroadcastsInDim S64x7 (![] : Fin 0 → Fin S64x7.rank)
  bcast_S64_S64x1_0 : S64.BroadcastsInDim S64x1 (![0] : Fin 1 → Fin S64x1.rank)
  bcast_S64x1_S64x7_0_1 : S64x1.BroadcastsInDim S64x7 (![0, 1] : Fin 2 → Fin S64x7.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S100000x7_S7x64_S100000x64_1_0_0_1_n_n_wf : DotDims.WF S100000x7 S7x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64_S100000x1_S100000_n_0_0_1_wf : ScatterDims.WF S64 S100000x1 S100000 [] [0] [0] 1
  scatter_S64x7_S100000x1_S100000x7_1_0_0_1_wf : ScatterDims.WF S64x7 S100000x1 S100000x7 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x7_S7x64_S100000x64_1_0_0_1_n_n : DotDims S100000x7 S7x64 S100000x64 where
  lhsContracting := [1]
  rhsContracting := [0]
  lhsNonContracting := [0]
  rhsNonContracting := [1]
  lhsBatch := []
  rhsBatch := []
  wf := dot_S100000x7_S7x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x7_S100000x1_S100000x7_1_0_0_1 : ScatterDims S64x7 S100000x1 S100000x7 where
  updateWindowDims := [1]
  insertedWindowDims := [0]
  scatterDimsToOperandDims := [0]
  indexVectorDim := 1
  wf := scatter_S64x7_S100000x1_S100000x7_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.K.RLib.lean ====
import proofs.«422210_j51213190037704_1_alg».proof.Proof.Gen.Kernel.Launch
import proofs.«422210_j51213190037704_1_alg».proof.Proof.Gen.Kernel.Skeleton
import proofs.«422210_j51213190037704_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Idealize.ShloMosaic Idealize.ShloMosaic.TcCoe
open Idealize.ShloMosaic.Pipeline (Dat Cfg)

variable {F : FTy → Type} [FloatOps F]

/-- `Dat.before_in_eq_fetched` for an input window whose side conditions hold by computation, stated at the block `B`. -/
theorem before_in {cfg : Cfg sig Λ₀} {c : Dev nD} (dat : Dat τ (Elt F) Unit ℕ (UR sig nD τ) ℕ cfg c) (w : Fin cfg.W)
    (B : Fin cfg.N → (cfg.win w).block.Idx → Elt F (cfg.win w).elt)
    (hw : (cfg.win w).isOut = false := by rfl) (hlive : ∀ i, cfg.idle w i = false := by exact fun _ => rfl)
    (hclip : ∀ t t' : Fin cfg.N, (cfg.win w).index t = (cfg.win w).index t' →
      (cfg.win w).clip (cfg.grid.coords t) = (cfg.win w).clip (cfg.grid.coords t') := by exact fun _ _ _ => rfl)
    (hkeep : ∀ t, (cfg.win w).cut (cfg.grid.coords t) (dat.after w t) = dat.blockOf w t := by exact fun _ => rfl)
    (hB : ∀ t d, dat.fetched w t d = B t := by exact fun _ _ => rfl) (t : Fin cfg.N) (d) : dat.before w t d = B t :=
  (dat.before_in_eq_fetched w hw hlive hclip hkeep t d).trans (hB t d)

end Cert.Kernel.Hand

end
-- ==== Proof.K.R0.lean ====
import proofs.«422210_j51213190037704_1_alg».proof.Proof.K.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S20000x7 := Rect.unit (s := S20000x7) ![0, 0] S20000x7.size inb_S20000x7_S20000x7_0_0
abbrev r0_1 : Rect S7x64 := Rect.unit (s := S7x64) ![0, 0] S7x64.size inb_S7x64_S7x64_0_0
abbrev r0_2 : Rect S20000x64 := Rect.unit (s := S20000x64) ![0, 0] S20000x64.size inb_S20000x64_S20000x64_0_0

/-- What the body's one store leaves in the output block, from the input blocks. -/
def out0_2 (x0 : Vec F S20000x7 .f32) (x1 : Vec F S7x64 .f32) : Vec F S20000x64 .f32 :=
  View.canon [⟨r0_2, k0_pay1 (View.ld x0 r0_0) (View.ld x1 r0_1)⟩]

set_option maxHeartbeats 1000000 in
/-- On whole blocks the body keeps its inputs and leaves `out0_2` of them in the output. -/
theorem sound_kernel0 (c : Dev nD) (E : Set ℕ) (i : grid0.Coords) (arg0 : Memref sig .tc .vmem S20000x7 .f32) (harg0 : arg0.IsWhole) (arg1 : Memref sig .tc .vmem S7x64 .f32) (harg1 : arg1.IsWhole) (arg2 : Memref sig .tc .vmem S20000x64 .f32) (harg2 : arg2.IsWhole)
    (x0 : Vec F S20000x7 .f32) (x1 : Vec F S7x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S20000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

/-- Every input holds its block (`before_in`), so the body's triple applies; the invariant and what is owed pass through. -/
theorem body_obligation0 (c : Dev nD) : BodyObligation (dat0 (F := F) V c) (defs₀ (F := F)) Variants.none () Set.univ := fun t => by
  rw [bigSep_W0, bigSep_W0]
  simp only [before_in (dat0 V c) 0 (iblk0 V c 0), before_in (dat0 V c) 1 (iblk0 V c 1)]
  dsimp only [dat0, Dat.owesAt]
  show _ ⊢ wp _ _ _ (bodyAt0 t) _
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe
  iexact Ho

end Cert.Kernel.Hand

end
-- ==== Proof.K.R1.lean ====
import proofs.«422210_j51213190037704_1_alg».proof.Proof.K.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S20000x64 := Rect.unit (s := S20000x64) ![0, 0] S20000x64.size inb_S20000x64_S20000x64_0_0
abbrev r1_2 : Rect S20000x1 := Rect.unit (s := S20000x1) ![0, 0] S20000x1.size inb_S20000x1_S20000x1_0_0
abbrev r1_3 : Rect S1x64 := Rect.unit (s := S1x64) ![0, 0] S1x64.size inb_S1x64_S1x64_0_0

/-- What the body's one store leaves in the output block, from the input blocks. -/
def out1_4 (x0 : Vec F S20000x64 .f32) (x1 : Vec F S20000x64 .f32) (x2 : Vec F S20000x1 .f32) (x3 : Vec F S1x64 .f32) : Vec F S20000x64 .f32 :=
  View.canon [⟨r1_0, k1_pay1 (View.ld x0 r1_0) (View.ld x1 r1_0) (View.ld x2 r1_2) (View.ld x3 r1_3)⟩]

set_option maxHeartbeats 1000000 in
/-- On whole blocks the body keeps its inputs and leaves `out1_4` of them in the output. -/
theorem sound_kernel1 (c : Dev nD) (E : Set ℕ) (i : grid1.Coords)
    (arg1 : Memref sig .tc .vmem S20000x64 .f32) (harg1 : arg1.IsWhole) (arg2 : Memref sig .tc .vmem S20000x64 .f32) (harg2 : arg2.IsWhole)
    (arg3 : Memref sig .tc .vmem S20000x1 .f32) (harg3 : arg3.IsWhole) (arg4 : Memref sig .tc .vmem S1x64 .f32) (harg4 : arg4.IsWhole)
    (arg5 : Memref sig .tc .vmem S20000x64 .f32) (harg5 : arg5.IsWhole)
    (x0 : Vec F S20000x64 .f32) (x1 : Vec F S20000x64 .f32) (x2 : Vec F S20000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S20000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) :
    (dat1 V c).after 4 t = out1_4 (iblk1 V c 0 t) (iblk1 V c 1 t) (iblk1 V c 2 t) (iblk1 V c 3 t) := by dsimp only [dat1]

/-- Every input holds its block (`before_in`), so the body's triple applies; the invariant and what is owed pass through. -/
theorem body_obligation1 (c : Dev nD) : BodyObligation (dat1 (F := F) V c) (defs₀ (F := F)) Variants.none () Set.univ := fun t => by
  rw [bigSep_W1, bigSep_W1]
  simp only [before_in (dat1 V c) 0 (iblk1 V c 0), before_in (dat1 V c) 1 (iblk1 V c 1), before_in (dat1 V c) 2 (iblk1 V c 2), before_in (dat1 V c) 3 (iblk1 V c 3)]
  dsimp only [dat1, Dat.owesAt]
  show _ ⊢ wp _ _ _ (bodyAt1 t) _
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  iframe H0 H1 H2 H3
  isplitl [H4]; · iexists _; iexact H4
  iintro ⟨H0, H1, H2, H3, H4⟩
  iframe
  iexact Ho

end Cert.Kernel.Hand

end
-- ==== Proof.K.R2.lean ====
import proofs.«422210_j51213190037704_1_alg».proof.Proof.K.RLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

abbrev VO2_2 : View sig .tc .vmem S64x7 .f32 := (Memref.whole cc2_stg2_0 : Memref sig .tc .vmem S64x7 .f32).view
abbrev ms2_0 (t : Fin cfg2.N) : Memref sig .tc .vmem S20000x7 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S20000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x7 .f32 := win2_2.stage (cfg2.slots t 2)
abbrev hs2_2 (t : Fin cfg2.N) : (ms2_2 t).IsWhole := hstage2_2 ((cfg2.slots t 2).cast nbuf2_2)
abbrev scM2_0 : Memref sig .tc .vmem S64x7 .f32 := Memref.whole cc2_scratch0
abbrev scM2_1 : Memref sig .tc .vmem S64x1 .f32 := Memref.whole cc2_scratch1
abbrev VS2_0 : View sig .tc .vmem S64x7 .f32 := scM2_0.view
abbrev VS2_1 : View sig .tc .vmem S64x1 .f32 := scM2_1.view

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

section
variable (c : Dev nD) (i : grid2.Coords) (arg1 : Memref sig .tc .vmem S20000x7 .f32) (harg1 : arg1.IsWhole) (arg2 : Memref sig .tc .vmem S20000x1 .i32) (harg2 : arg2.IsWhole) (arg3 : Memref sig .tc .vmem S64x7 .f32) (harg3 : arg3.IsWhole) (arg4 : Memref sig .tc .vmem S64x7 .f32) (harg4 : arg4.IsWhole) (arg5 : Memref sig .tc .vmem S64x1 .f32) (harg5 : arg5.IsWhole)

section
variable (hc0 : cond2_0 i) (hc1 : ¬cond2_1 i) (x0 : Vec F S20000x7 .f32) (x1 : Vec F S20000x1 .i32)

-- first tile: the accumulators start from zero and take this tile's sums and counts
set_option maxHeartbeats 2000000 in
def kernelRun2_A :
    Σ' (LS0 : List (View.Piece (Elt F) S64x7 .f32)), { LS1 : List (View.Piece (Elt F) S64x1 .f32) //
      ∀ (xi2 : Vec F S64x7 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc2_kernel i arg1 harg1 arg2 harg2 arg3 harg3 arg4 harg4 arg5 harg5) K } := by
  refine ⟨?_, ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

theorem scover2_A_0 (y : S64x7.Idx) : ∃ pc ∈ (kernelRun2_A c i arg1 harg1 arg2 harg2 arg3 harg3 arg4 harg4 arg5 harg5 hc0 hc1 x0 x1).1, y ∈ pc.1.set :=
  View.cover_of_tiledL _ S64x7.size (by sl_kernel_rfl) y
def sout2_A_0 : Vec F S64x7 .f32 :=
  VS2_0.read (Elt F) (VS2_0.writes (Elt F) VS2_0.junk (kernelRun2_A c i arg1 harg1 arg2 harg2 arg3 harg3 arg4 harg4 arg5 harg5 hc0 hc1 x0 x1).1)
theorem scover2_A_1 (y : S64x1.Idx) : ∃ pc ∈ (kernelRun2_A c i arg1 harg1 arg2 harg2 arg3 harg3 arg4 harg4 arg5 harg5 hc0 hc1 x0 x1).2.1, y ∈ pc.1.set :=
  View.cover_of_tiledL _ S64x1.size (by sl_kernel_rfl) y
def sout2_A_1 : Vec F S64x1 .f32 :=
  VS2_1.read (Elt F) (VS2_1.writes (Elt F) VS2_1.junk (kernelRun2_A c i arg1 harg1 arg2 harg2 arg3 harg3 arg4 harg4 arg5 harg5 hc0 hc1 x0 x1).2.1)
end

section
variable (hc0 : ¬cond2_0 i) (hc1 : ¬cond2_1 i) (x0 : Vec F S20000x7 .f32) (x1 : Vec F S20000x1 .i32) (xs0 : Vec F S64x7 .f32) (xs1 : Vec F S64x1 .f32)

-- a middle tile adds its sums and counts to what the tile before left
set_option maxHeartbeats 2000000 in
def kernelRun2_B :
    Σ' (LS0 : List (View.Piece (Elt F) S64x7 .f32)), { LS1 : List (View.Piece (Elt F) S64x1 .f32) //
      ∀ (xi2 : Vec F S64x7 .f32) (E : Set ℕ) (K : PUnit → sProp 𝕄),
        iprop(owns (c : Thread nD τ) arg1 fullShare x0 ∗ owns (c : Thread nD τ) arg2 fullShare x1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc2_kernel i arg1 harg1 arg2 harg2 arg3 harg3 arg4 harg4 arg5 harg5) K } := by
  refine ⟨?_, ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

theorem scover2_B_0 (y : S64x7.Idx) : ∃ pc ∈ (kernelRun2_B c i arg1 harg1 arg2 harg2 arg3 harg3 arg4 harg4 arg5 harg5 hc0 hc1 x0 x1 xs0 xs1).1, y ∈ pc.1.set :=
  View.cover_of_tiledL _ S64x7.size (by sl_kernel_rfl) y
def sout2_B_0 : Vec F S64x7 .f32 :=
  VS2_0.read (Elt F) (VS2_0.writes (Elt F) VS2_0.junk (kernelRun2_B c i arg1 harg1 arg2 harg2 arg3 harg3 arg4 harg4 arg5 harg5 hc0 hc1 x0 x1 xs0 xs1).1)
theorem scover2_B_1 (y : S64x1.Idx) : ∃ pc ∈ (kernelRun2_B c i arg1 harg1 arg2 harg2 arg3 harg3 arg4 harg4 arg5 harg5 hc0 hc1 x0 x1 xs0 xs1).2.1, y ∈ pc.1.set :=
  View.cover_of_tiledL _ S64x1.size (by sl_kernel_rfl) y
def sout2_B_1 : Vec F S64x1 .f32 :=
  VS2_1.read (Elt F) (VS2_1.writes (Elt F) VS2_1.junk (kernelRun2_B c i arg1 harg1 arg2 harg2 arg3 harg3 arg4 harg4 arg5 harg5 hc0 hc1 x0 x1 xs0 xs1).2.1)
end

section
variable (hc0 : ¬cond2_0 i) (hc1 : cond2_1 i) (x0 : Vec F S20000x7 .f32) (x1 : Vec F S20000x1 .i32) (xs0 : Vec F S64x7 .f32) (xs1 : Vec F S64x1 .f32)

-- last tile: adds likewise, then writes the mean (sums over counts) as the result
set_option maxHeartbeats 2000000 in
def kernelRun2_C :
    Σ' (L2 : List (View.Piece (Elt F) S64x7 .f32)) (LS0 : List (View.Piece (Elt F) S64x7 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc2_kernel i arg1 harg1 arg2 harg2 arg3 harg3 arg4 harg4 arg5 harg5) K } := by
  refine ⟨?_, ?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

theorem cover2_C_2 (y : S64x7.Idx) : ∃ pc ∈ (kernelRun2_C c i arg1 harg1 arg2 harg2 arg3 harg3 arg4 harg4 arg5 harg5 hc0 hc1 x0 x1 xs0 xs1).1, y ∈ pc.1.set :=
  View.cover_of_tiledL _ S64x7.size (by sl_kernel_rfl) y
def out2_C_2 : Vec F S64x7 .f32 :=
  VO2_2.read (Elt F) (VO2_2.writes (Elt F) VO2_2.junk (kernelRun2_C c i arg1 harg1 arg2 harg2 arg3 harg3 arg4 harg4 arg5 harg5 hc0 hc1 x0 x1 xs0 xs1).1)
theorem scover2_C_0 (y : S64x7.Idx) : ∃ pc ∈ (kernelRun2_C c i arg1 harg1 arg2 harg2 arg3 harg3 arg4 harg4 arg5 harg5 hc0 hc1 x0 x1 xs0 xs1).2.1, y ∈ pc.1.set :=
  View.cover_of_tiledL _ S64x7.size (by sl_kernel_rfl) y
def sout2_C_0 : Vec F S64x7 .f32 :=
  VS2_0.read (Elt F) (VS2_0.writes (Elt F) VS2_0.junk (kernelRun2_C c i arg1 harg1 arg2 harg2 arg3 harg3 arg4 harg4 arg5 harg5 hc0 hc1 x0 x1 xs0 xs1).2.1)
theorem scover2_C_1 (y : S64x1.Idx) : ∃ pc ∈ (kernelRun2_C c i arg1 harg1 arg2 harg2 arg3 harg3 arg4 harg4 arg5 harg5 hc0 hc1 x0 x1 xs0 xs1).2.2.1, y ∈ pc.1.set :=
  View.cover_of_tiledL _ S64x1.size (by sl_kernel_rfl) y
def sout2_C_1 : Vec F S64x1 .f32 :=
  VS2_1.read (Elt F) (VS2_1.writes (Elt F) VS2_1.junk (kernelRun2_C c i arg1 harg1 arg2 harg2 arg3 harg3 arg4 harg4 arg5 harg5 hc0 hc1 x0 x1 xs0 xs1).2.2.1)
end
end

def idleOut2 : Vec F S64x7 .f32 := VO2_2.read (Elt F) (VO2_2.writes (Elt F) VO2_2.junk [])

theorem not_cond2_1_zero (hn : 0 < cfg2.N) : ¬cond2_1 (grid2.coords ⟨0, hn⟩) := fun h => by
  have h' : 0 % 5 = 4 := (hcond2_1 ⟨0, hn⟩).mp h
  omega

theorem not_cond2_0_succ (n : ℕ) (hn : n + 1 < cfg2.N) : ¬cond2_0 (grid2.coords ⟨n + 1, hn⟩) := fun h => by
  have h' : (n + 1) % 5 = 0 := (hcond2_0 ⟨n + 1, hn⟩).mp h
  have hN : n + 1 < 5 := lt_of_lt_of_eq hn (show cfg2.N = 5 from N_2)
  omega

-- after tile n: the result and the two accumulators, each tile's step taken on what the tile before left
def outsAt2 (c : Dev nD) : (n : ℕ) → n < cfg2.N → Vec F S64x7 .f32 × Vec F S64x7 .f32 × Vec F S64x1 .f32
  | 0, hn =>
    let t : Fin cfg2.N := ⟨0, hn⟩
    have h0 : cond2_0 (grid2.coords t) := (hcond2_0 t).mpr (Nat.zero_mod _)
    (idleOut2,
      sout2_A_0 c (grid2.coords t) (ms2_0 t) (hs2_0 t) (ms2_1 t) (hs2_1 t) (ms2_2 t) (hs2_2 t) scM2_0 (Memref.isWhole_whole _) scM2_1 (Memref.isWhole_whole _) h0 (not_cond2_1_zero hn) (iblk2 V c 0 t) (iblk2 V c 1 t),
      sout2_A_1 c (grid2.coords t) (ms2_0 t) (hs2_0 t) (ms2_1 t) (hs2_1 t) (ms2_2 t) (hs2_2 t) scM2_0 (Memref.isWhole_whole _) scM2_1 (Memref.isWhole_whole _) h0 (not_cond2_1_zero hn) (iblk2 V c 0 t) (iblk2 V c 1 t))
  | n + 1, hn =>
    if h1 : (n + 1) % 5 = 4 then
      let t : Fin cfg2.N := ⟨n + 1, hn⟩
      let p := outsAt2 c n (Nat.lt_of_succ_lt hn)
      have h0 : ¬cond2_0 (grid2.coords t) := not_cond2_0_succ n hn
      have h1 : cond2_1 (grid2.coords t) := (hcond2_1 t).mpr h1
      (out2_C_2 c (grid2.coords t) (ms2_0 t) (hs2_0 t) (ms2_1 t) (hs2_1 t) (ms2_2 t) (hs2_2 t) scM2_0 (Memref.isWhole_whole _) scM2_1 (Memref.isWhole_whole _) h0 h1 (iblk2 V c 0 t) (iblk2 V c 1 t) p.2.1 p.2.2,
        sout2_C_0 c (grid2.coords t) (ms2_0 t) (hs2_0 t) (ms2_1 t) (hs2_1 t) (ms2_2 t) (hs2_2 t) scM2_0 (Memref.isWhole_whole _) scM2_1 (Memref.isWhole_whole _) h0 h1 (iblk2 V c 0 t) (iblk2 V c 1 t) p.2.1 p.2.2,
        sout2_C_1 c (grid2.coords t) (ms2_0 t) (hs2_0 t) (ms2_1 t) (hs2_1 t) (ms2_2 t) (hs2_2 t) scM2_0 (Memref.isWhole_whole _) scM2_1 (Memref.isWhole_whole _) h0 h1 (iblk2 V c 0 t) (iblk2 V c 1 t) p.2.1 p.2.2)
    else
      let t : Fin cfg2.N := ⟨n + 1, hn⟩
      let p := outsAt2 c n (Nat.lt_of_succ_lt hn)
      have h0 : ¬cond2_0 (grid2.coords t) := not_cond2_0_succ n hn
      have h1 : ¬cond2_1 (grid2.coords t) := fun h => h1 ((hcond2_1 t).mp h)
      (idleOut2,
        sout2_B_0 c (grid2.coords t) (ms2_0 t) (hs2_0 t) (ms2_1 t) (hs2_1 t) (ms2_2 t) (hs2_2 t) scM2_0 (Memref.isWhole_whole _) scM2_1 (Memref.isWhole_whole _) h0 h1 (iblk2 V c 0 t) (iblk2 V c 1 t) p.2.1 p.2.2,
        sout2_B_1 c (grid2.coords t) (ms2_0 t) (hs2_0 t) (ms2_1 t) (hs2_1 t) (ms2_2 t) (hs2_2 t) scM2_0 (Memref.isWhole_whole _) scM2_1 (Memref.isWhole_whole _) h0 h1 (iblk2 V c 0 t) (iblk2 V c 1 t) p.2.1 p.2.2)

-- before tile n the accumulators hold what tile n - 1 left (anything before the first)
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.1 ∗ owns (c : Thread nD τ) scM2_1 fullShare (outsAt2 V c n hn).2.2) ∗ rest2 c) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = (outsAt2 V c t.val t.isLt).1 := rfl

-- writes that cover every index fix the contents, whatever was there before
theorem owns_writes (c : Dev nD) {s : Shape} {e : EltTy} {M : Memref sig .tc .vmem s e} (v' : View sig .tc .vmem s e)
    {L : List (View.Piece (Elt F) s e)} (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩; unfold owns; iexists M.view.writes (Elt F) f L; isplitr
  · ipureintro; exact View.read_writes_of_cover _ _ _ _ _ h
  · iexact H

theorem leaves2 (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

-- the tile's number picks the case; that case's writes cover both accumulators (at the last tile the result too)
set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before_in (dat2 V c) 0 (iblk2 V c 0), before_in (dat2 V c) 1 (iblk2 V c 1)]
  rw [leaves2 V c 0 t (liveAt2_0 t), after2_0, leaves2 V c 1 t (liveAt2_1 t), after2_1]
  obtain ⟨n, hn⟩ := t
  rw [show (dat2 V c).owesAt () (Fin.succ ⟨n, hn⟩) = (dat2 V c).owesAt () (Fin.castSucc ⟨n, hn⟩) from rfl,
    show (dat2 V c).Φ (Fin.succ ⟨n, hn⟩) = PhiS2 V c (n + 1) hn from rfl, PhiS2,
    show (dat2 V c).Φ (Fin.castSucc ⟨n, hn⟩) = PhiS2 V c n (Nat.le_of_lt hn) from rfl]
  by_cases hc1 : cond2_1 (grid2.coords ⟨n, hn⟩)
  · rw [leaves2 V c 2 _ (liveAt2_2 _ hc1), after2_2]
    cases n with
    | zero => exact absurd hc1 (not_cond2_1_zero hn)
    | succ n =>
      have hc0 := not_cond2_0_succ n hn
      rw [PhiS2, outsAt2, dif_pos ((hcond2_1 _).mp hc1)]
      unfold out2_C_2 sout2_C_0 sout2_C_1; dsimp only
      iintro ⟨⟨⟨⟨HS0, HS1⟩, HR⟩, Hg⟩, Ho, ⟨%d0, H0⟩, ⟨%d1, H1⟩, ⟨%d2, H2⟩⟩
      iapply ((kernelRun2_C c _ _ _ _ _ _ _ _ _ _ _ hc0 hc1 (iblk2 V c 0 _) (iblk2 V c 1 _) _ _).2.2.2 Set.univ _)
      iframe H0 H1 HS0 HS1
      isplitl [H2]; · iexists _; iexact H2
      iintro ⟨H0, H1, H2, HS0, HS1⟩
      iframe HR Hg Ho H0 H1
      isplitl [HS0 HS1]
      · isplitl [HS0]
        · iapply owns_writes c VS2_0 (scover2_C_0 c _ _ _ _ _ _ _ _ _ _ _ _ _ _ _ _ _); iexact HS0
        · iapply owns_writes c VS2_1 (scover2_C_1 c _ _ _ _ _ _ _ _ _ _ _ _ _ _ _ _ _); iexact HS1
      iapply owns_writes c VO2_2 (cover2_C_2 c _ _ _ _ _ _ _ _ _ _ _ _ _ _ _ _ _); iexact H2
  · rw [Dat.leavesExact_idle (dat2 V c) 2 _ (idleAt2_2 _ hc1) (noFlush2_2 _ hc1)]
    cases n with
    | zero =>
      rw [PhiS2, outsAt2, PhiA2_eq]
      unfold sout2_A_0 sout2_A_1; dsimp only
      iintro ⟨⟨⟨⟨HS0, HS1⟩, HR⟩, Hg⟩, Ho, ⟨%d0, H0⟩, ⟨%d1, H1⟩, ⟨%d2, H2⟩⟩
      iapply ((kernelRun2_A c _ _ _ _ _ _ _ _ _ _ _ _ hc1 (iblk2 V c 0 _) (iblk2 V c 1 _)).2.2 _ Set.univ _)
      iframe H0 H1 H2 HS0 HS1
      iintro ⟨H0, H1, H2, HS0, HS1⟩
      iframe HR Hg Ho H0 H1
      isplitl [HS0 HS1]
      · isplitl [HS0]
        · iapply owns_writes c VS2_0 (scover2_A_0 c _ _ _ _ _ _ _ _ _ _ _ _ _ _ _); iexact HS0
        · iapply owns_writes c VS2_1 (scover2_A_1 c _ _ _ _ _ _ _ _ _ _ _ _ _ _ _); iexact HS1
      iexists _; iexact H2
    | succ n =>
      have hc0 := not_cond2_0_succ n hn
      rw [PhiS2, outsAt2, dif_neg (fun h => hc1 ((hcond2_1 _).mpr h))]
      unfold sout2_B_0 sout2_B_1; dsimp only
      iintro ⟨⟨⟨⟨HS0, HS1⟩, HR⟩, Hg⟩, Ho, ⟨%d0, H0⟩, ⟨%d1, H1⟩, ⟨%d2, H2⟩⟩
      iapply ((kernelRun2_B c _ _ _ _ _ _ _ _ _ _ _ hc0 hc1 (iblk2 V c 0 _) (iblk2 V c 1 _) _ _).2.2 _ Set.univ _)
      iframe H0 H1 H2 HS0 HS1
      iintro ⟨H0, H1, H2, HS0, HS1⟩
      iframe HR Hg Ho H0 H1
      isplitl [HS0 HS1]
      · isplitl [HS0]
        · iapply owns_writes c VS2_0 (scover2_B_0 c _ _ _ _ _ _ _ _ _ _ _ _ _ _ _ _ _); iexact HS0
        · iapply owns_writes c VS2_1 (scover2_B_1 c _ _ _ _ _ _ _ _ _ _ _ _ _ _ _ _ _); iexact HS1
      iexists _; iexact H2

theorem body_obligation2 (c : Dev nD) : BodyObligation (dat2 (F := F) V c) (defs₀ (F := F)) Variants.none () Set.univ := fun t => by
  rw [bigSep_W2, bigSep_W2]
  exact sound_body2 V c t

theorem Φ2_first (c : Dev nD) : (Pipeline.ΦA spec2 c : sProp 𝕄) ⊢ (dat2 V c).Φ 0 := Entails.refl _

-- after the last tile what the accumulators hold is forgotten
theorem Φ2_last (c : Dev nD) : (dat2 V c).Φ (Fin.last _) ⊢ (Pipeline.ΦA spec2 c : sProp 𝕄) := by
  rw [PhiA2_eq]
  show iprop(iprop(iprop(_ ∗ _) ∗ _) ∗ _) ⊢ _
  iintro ⟨⟨⟨HS0, HS1⟩, HR⟩, Hg⟩
  iframe HR Hg
  isplitl [HS0]; · iexists _; iexact HS0
  iexists _; iexact HS1

end Cert.Kernel.Hand

end
-- ==== Proof.K.R3.lean ====
import proofs.«422210_j51213190037704_1_alg».proof.Proof.K.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S20000x64 := Rect.unit (s := S20000x64) ![0, 0] S20000x64.size inb_S20000x64_S20000x64_0_0
abbrev r3_1 : Rect S64x32 := Rect.unit (s := S64x32) ![0, 0] S64x32.size inb_S64x32_S64x32_0_0
abbrev r3_2 : Rect S20000x32 := Rect.unit (s := S20000x32) ![0, 0] S20000x32.size inb_S20000x32_S20000x32_0_0

/-- What the body's one store leaves in the output block, from the input blocks. -/
def out3_2 (x0 : Vec F S20000x64 .f32) (x1 : Vec F S64x32 .f32) : Vec F S20000x32 .f32 :=
  View.canon [⟨r3_2, k3_pay1 (View.ld x0 r3_0) (View.ld x1 r3_1)⟩]

set_option maxHeartbeats 1000000 in
/-- On whole blocks the body keeps its inputs and leaves `out3_2` of them in the output. -/
theorem sound_kernel3 (c : Dev nD) (E : Set ℕ) (i : grid3.Coords) (arg1 : Memref sig .tc .vmem S20000x64 .f32) (harg1 : arg1.IsWhole)
    (arg2 : Memref sig .tc .vmem S64x32 .f32) (harg2 : arg2.IsWhole) (arg3 : Memref sig .tc .vmem S20000x32 .f32) (harg3 : arg3.IsWhole)
    (x0 : Vec F S20000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S20000x32.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = out3_2 (iblk3 V c 0 t) (iblk3 V c 1 t) := by dsimp only [dat3]

/-- Every input holds its block (`before_in`), so the body's triple applies; the invariant and what is owed pass through. -/
theorem body_obligation3 (c : Dev nD) : BodyObligation (dat3 (F := F) V c) (defs₀ (F := F)) Variants.none () Set.univ := fun t => by
  rw [bigSep_W3, bigSep_W3]
  simp only [before_in (dat3 V c) 0 (iblk3 V c 0), before_in (dat3 V c) 1 (iblk3 V c 1)]
  dsimp only [dat3, Dat.owesAt]
  show _ ⊢ wp _ _ _ (bodyAt3 t) _
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe
  iexact Ho

end Cert.Kernel.Hand

end
-- ==== Proof.K.R4.lean ====
import proofs.«422210_j51213190037704_1_alg».proof.Proof.K.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S20000x32 := Rect.unit (s := S20000x32) ![0, 0] S20000x32.size inb_S20000x32_S20000x32_0_0
abbrev r4_1 : Rect S20000x1 := Rect.unit (s := S20000x1) ![0, 0] S20000x1.size inb_S20000x1_S20000x1_0_0
abbrev r4_2 : Rect S1x32 := Rect.unit (s := S1x32) ![0, 0] S1x32.size inb_S1x32_S1x32_0_0

/-- What the body's one store leaves in the output block, from the input blocks. -/
def out4_4 (x0 : Vec F S20000x32 .f32) (x1 : Vec F S20000x32 .f32) (x2 : Vec F S20000x1 .f32) (x3 : Vec F S1x32 .f32) : Vec F S20000x32 .f32 :=
  View.canon [⟨r4_0, k4_pay1 (View.ld x0 r4_0) (View.ld x1 r4_0) (View.ld x2 r4_1) (View.ld x3 r4_2)⟩]

set_option maxHeartbeats 1000000 in
/-- On whole blocks the body keeps its inputs and leaves `out4_4` of them in the output. -/
theorem sound_kernel4 (c : Dev nD) (E : Set ℕ) (i : grid4.Coords) (arg1 : Memref sig .tc .vmem S20000x32 .f32) (harg1 : arg1.IsWhole) (arg2 : Memref sig .tc .vmem S20000x32 .f32) (harg2 : arg2.IsWhole) (arg3 : Memref sig .tc .vmem S20000x1 .f32) (harg3 : arg3.IsWhole) (arg4 : Memref sig .tc .vmem S1x32 .f32) (harg4 : arg4.IsWhole) (arg5 : Memref sig .tc .vmem S20000x32 .f32) (harg5 : arg5.IsWhole)
    (x0 : Vec F S20000x32 .f32) (x1 : Vec F S20000x32 .f32) (x2 : Vec F S20000x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__combine_kernel i arg1 harg1 arg2 harg2 arg3 harg3 arg4 harg4 arg5 harg5) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S20000x32.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := rfl

theorem after4_4 (c : Dev nD) (t : Fin cfg4.N) : (dat4 V c).after 4 t = out4_4 (iblk4 V c 0 t) (iblk4 V c 1 t) (iblk4 V c 2 t) (iblk4 V c 3 t) := by dsimp only [dat4]

/-- Every input holds its block (`before_in`), so the body's triple applies; the invariant and what is owed pass through. -/
theorem body_obligation4 (c : Dev nD) : BodyObligation (dat4 (F := F) V c) (defs₀ (F := F)) Variants.none () Set.univ := fun t => by
  rw [bigSep_W4, bigSep_W4]
  simp only [before_in (dat4 V c) 0 (iblk4 V c 0), before_in (dat4 V c) 1 (iblk4 V c 1), before_in (dat4 V c) 2 (iblk4 V c 2), before_in (dat4 V c) 3 (iblk4 V c 3)]
  dsimp only [dat4, Dat.owesAt]
  show _ ⊢ wp _ _ _ (bodyAt4 t) _
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  iframe H0 H1 H2 H3
  isplitl [H4]; · iexists _; iexact H4
  iintro ⟨H0, H1, H2, H3, H4⟩
  iframe
  iexact Ho

end Cert.Kernel.Hand

end
-- ==== Proof.K.R5.lean ====
import proofs.«422210_j51213190037704_1_alg».proof.Proof.K.RLib
import proofs.«422210_j51213190037704_1_alg».proof.Proof.K.R3

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S20000x64 := Rect.unit (s := S20000x64) ![0, 0] S20000x64.size inb_S20000x64_S20000x64_0_0
abbrev r5_1 : Rect S64x32 := Rect.unit (s := S64x32) ![0, 0] S64x32.size inb_S64x32_S64x32_0_0
abbrev r5_2 : Rect S20000x32 := Rect.unit (s := S20000x32) ![0, 0] S20000x32.size inb_S20000x32_S20000x32_0_0

/-- What the body's one store leaves in the output block, from the input blocks. -/
def out5_2 (x0 : Vec F S20000x64 .f32) (x1 : Vec F S64x32 .f32) : Vec F S20000x32 .f32 :=
  View.canon [⟨r5_2, k5_pay1 (View.ld x0 r5_0) (View.ld x1 r5_1)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := rfl

theorem after5_2 (c : Dev nD) (t : Fin cfg5.N) : (dat5 V c).after 2 t = out5_2 (iblk5 V c 0 t) (iblk5 V c 1 t) := by dsimp only [dat5]

/-- Region 5's body is region 3's program under other names, so `sound_kernel3` applies, every input holding its block (`before_in`). -/
theorem body_obligation5 (c : Dev nD) : BodyObligation (dat5 (F := F) V c) (defs₀ (F := F)) Variants.none () Set.univ := fun t => by
  rw [bigSep_W5, bigSep_W5]
  simp only [before_in (dat5 V c) 0 (iblk5 V c 0), before_in (dat5 V c) 1 (iblk5 V c 1)]
  dsimp only [dat5, Dat.owesAt]
  rw [show out5_2 (F := F) = out3_2 from rfl]
  show _ ⊢ wp _ _ _ (bodyAt5 t) _
  iintro ⟨HΦ, Ho, ⟨%d0, H0⟩, ⟨%d1, H1⟩, ⟨%d2, H2⟩⟩
  iapply (sound_kernel3 c Set.univ (grid5.coords t) _ (hstage5_0 _) _ (hstage5_1 _) _ (hstage5_2 _) (iblk5 V c 0 t) (iblk5 V c 1 t) _)
  iframe H0 H1
  isplitl [H2]; · iexists _; iexact H2
  iintro ⟨H0, H1, H2⟩
  iframe
  iexact Ho

end Cert.Kernel.Hand

end
-- ==== Proof.K.R6.lean ====
import proofs.«422210_j51213190037704_1_alg».proof.Proof.K.RLib
import proofs.«422210_j51213190037704_1_alg».proof.Proof.K.R4

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S20000x32 := Rect.unit (s := S20000x32) ![0, 0] S20000x32.size inb_S20000x32_S20000x32_0_0
abbrev r6_1 : Rect S20000x1 := Rect.unit (s := S20000x1) ![0, 0] S20000x1.size inb_S20000x1_S20000x1_0_0
abbrev r6_2 : Rect S1x32 := Rect.unit (s := S1x32) ![0, 0] S1x32.size inb_S1x32_S1x32_0_0

/-- What the body's one store leaves in the output block, from the input blocks. -/
def out6_4 (x0 : Vec F S20000x32 .f32) (x1 : Vec F S20000x32 .f32) (x2 : Vec F S20000x1 .f32) (x3 : Vec F S1x32 .f32) : Vec F S20000x32 .f32 :=
  View.canon [⟨r6_0, k6_pay1 (View.ld x0 r6_0) (View.ld x1 r6_0) (View.ld x2 r6_1) (View.ld x3 r6_2)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := rfl

theorem after6_4 (c : Dev nD) (t : Fin cfg6.N) : (dat6 V c).after 4 t = out6_4 (iblk6 V c 0 t) (iblk6 V c 1 t) (iblk6 V c 2 t) (iblk6 V c 3 t) := by dsimp only [dat6]

/-- Region 6's body is region 4's program under other names, so `sound_kernel4` applies, every input holding its block (`before_in`). -/
theorem body_obligation6 (c : Dev nD) : BodyObligation (dat6 (F := F) V c) (defs₀ (F := F)) Variants.none () Set.univ := fun t => by
  rw [bigSep_W6, bigSep_W6]
  simp only [before_in (dat6 V c) 0 (iblk6 V c 0), before_in (dat6 V c) 1 (iblk6 V c 1), before_in (dat6 V c) 2 (iblk6 V c 2), before_in (dat6 V c) 3 (iblk6 V c 3)]
  dsimp only [dat6, Dat.owesAt]
  rw [show out6_4 (F := F) = out4_4 from rfl]
  show _ ⊢ wp _ _ _ (bodyAt6 t) _
  iintro ⟨HΦ, Ho, ⟨%d0, H0⟩, ⟨%d1, H1⟩, ⟨%d2, H2⟩, ⟨%d3, H3⟩, ⟨%d4, H4⟩⟩
  iapply (sound_kernel4 c Set.univ (grid6.coords t) _ (hstage6_0 _) _ (hstage6_1 _) _ (hstage6_2 _) _ (hstage6_3 _) _ (hstage6_4 _) (iblk6 V c 0 t) (iblk6 V c 1 t) (iblk6 V c 2 t) (iblk6 V c 3 t) _)
  iframe H0 H1 H2 H3
  isplitl [H4]; · iexists _; iexact H4
  iintro ⟨H0, H1, H2, H3, H4⟩
  iframe
  iexact Ho

end Cert.Kernel.Hand

end
-- ==== Proof.K.R7.lean ====
import proofs.«422210_j51213190037704_1_alg».proof.Proof.K.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S20000x32 := Rect.unit (s := S20000x32) ![0, 0] S20000x32.size inb_S20000x32_S20000x32_0_0

/-- What the body's one store leaves in the output block, from the input blocks. -/
def out7_3 (x0 : Vec F S20000x32 .f32) (x1 : Vec F S20000x32 .f32) (x2 : Vec F S20000x32 .f32) : Vec F S20000x32 .f32 :=
  View.canon [⟨r7_0, k7_pay1 (View.ld x0 r7_0) (View.ld x2 r7_0) (View.ld x1 r7_0)⟩]

set_option maxHeartbeats 1000000 in
/-- On whole blocks the body keeps its inputs and leaves `out7_3` of them in the output. -/
theorem sound_kernel7 (c : Dev nD) (E : Set ℕ) (i : grid7.Coords) (arg1 : Memref sig .tc .vmem S20000x32 .f32) (harg1 : arg1.IsWhole) (arg2 : Memref sig .tc .vmem S20000x32 .f32) (harg2 : arg2.IsWhole) (arg3 : Memref sig .tc .vmem S20000x32 .f32) (harg3 : arg3.IsWhole) (arg4 : Memref sig .tc .vmem S20000x32 .f32) (harg4 : arg4.IsWhole)
    (x0 : Vec F S20000x32 .f32) (x1 : Vec F S20000x32 .f32) (x2 : Vec F S20000x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__reparam_kernel i arg1 harg1 arg2 harg2 arg3 harg3 arg4 harg4) K := by
  simp only [cc7__reparam_kernel_eq_skeleton]; unfold cc7__reparam_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S20000x32.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := rfl

theorem after7_3 (c : Dev nD) (t : Fin cfg7.N) : (dat7 V c).after 3 t = out7_3 (iblk7 V c 0 t) (iblk7 V c 1 t) (iblk7 V c 2 t) := by dsimp only [dat7]

/-- Every input holds its block (`before_in`), so the body's triple applies; the invariant and what is owed pass through. -/
theorem body_obligation7 (c : Dev nD) : BodyObligation (dat7 (F := F) V c) (defs₀ (F := F)) Variants.none () Set.univ := fun t => by
  rw [bigSep_W7, bigSep_W7]
  simp only [before_in (dat7 V c) 0 (iblk7 V c 0), before_in (dat7 V c) 1 (iblk7 V c 1), before_in (dat7 V c) 2 (iblk7 V c 2)]
  dsimp only [dat7, Dat.owesAt]
  show _ ⊢ wp _ _ _ (bodyAt7 t) _
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  iframe H0 H1 H2
  isplitl [H3]; · iexists _; iexact H3
  iintro ⟨H0, H1, H2, H3⟩
  iframe
  iexact Ho

end Cert.Kernel.Hand

end
-- ==== Proof.K.Fold.lean ====
import proofs.«422210_j51213190037704_1_alg».proof.Proof.Gen.Kernel.Regions
import proofs.«422210_j51213190037704_1_alg».proof.Proof.K.R0
import proofs.«422210_j51213190037704_1_alg».proof.Proof.K.R1
import proofs.«422210_j51213190037704_1_alg».proof.Proof.K.R2
import proofs.«422210_j51213190037704_1_alg».proof.Proof.K.R3
import proofs.«422210_j51213190037704_1_alg».proof.Proof.K.R4
import proofs.«422210_j51213190037704_1_alg».proof.Proof.K.R5
import proofs.«422210_j51213190037704_1_alg».proof.Proof.K.R6
import proofs.«422210_j51213190037704_1_alg».proof.Proof.K.R7

noncomputable section

namespace Cert.Kernel.Hand

open Cert.Kernel Cert.Kernel.Gen
open Idealize.ShloMosaic Idealize.ShloMosaic.TcCoe
open Idealize.ShloMosaic.Pipeline (Dat)

variable {F : FTy → Type} [FloatOps F]

section Exit

variable {cfg : Pipeline.Cfg sig Λ₀} {c : Dev nD}
  (Win : Valuation τ sig (Elt F)) (dat : Dat τ (Elt F) Unit ℕ (UR sig nD τ) ℕ cfg c)

/-- What a region leaves in the unscoped buffers: each of its arrays at what its write-backs fold to, every other buffer as entered. -/
def exitOf : Valuation τ sig (Elt F) := Pipeline.withArrays cfg.spec c Win fun w => dat.arrAt w cfg.N

theorem exitOf_arr (hinj : Function.Injective (Pipeline.arrRef cfg.spec)) (w : Fin cfg.W) : exitOf Win dat (Proc.devRef .tc (Pipeline.arrRef cfg.spec w)) = dat.arrAt w cfg.N :=
  Pipeline.withArrays_arr cfg.spec hinj c _ _ w

/-- The arrays a pipeline writes back: its output windows'. -/
def outRefs (cfg : Pipeline.Cfg sig Λ₀) : List (Ref sig .tc) :=
  ((List.finRange cfg.W).filter fun w => (cfg.win w).isOut).map (Pipeline.arrRef cfg.spec)

/-- A region changes its output windows' arrays only. -/
theorem exitOf_same (hinj : Function.Injective (Pipeline.arrRef cfg.spec)) (hA : ∀ w, dat.A w = Win (Proc.devRef .tc (Pipeline.arrRef cfg.spec w))) (b : Ref sig .tc) (hb : b ∉ outRefs cfg) :
    exitOf Win dat (Proc.devRef .tc b) = Win (Proc.devRef .tc b) := by
  by_cases h : ∃ w, Pipeline.arrRef cfg.spec w = b
  · obtain ⟨w, rfl⟩ := h
    have hw : (cfg.win w).isOut = false := Bool.eq_false_iff.mpr fun hw =>
      hb (List.mem_map.mpr ⟨w, List.mem_filter.mpr ⟨List.mem_finRange w, hw⟩, rfl⟩)
    exact (exitOf_arr Win dat hinj w).trans ((dat.arrAt_in w hw _).trans (hA w))
  · exact Pipeline.withArrays_of_ne cfg.spec c _ _ b fun w e => h ⟨w, e⟩

end Exit

/-- A valuation read at the TensorCore's references, as a region's proof data take it. -/
abbrev atTc (W : Dev nD → Valuation τ sig (Elt F)) : (c : Dev nD) → (b : Ref sig .tc) → Buf (Elt F) ((c : Thread nD τ).loc b) := fun c b => W c b

/-- @main's thirteen items as maps of the unscoped buffers' contents: a host stretch applies its operations, a region
    is `exitOf` at its proof data taken at the contents it is entered with. -/
def step : ℕ → (Dev nD → Valuation τ sig (Elt F)) → Dev nD → Valuation τ sig (Elt F)
  | 0, W, c => StableHlo.after hostOps0 (W c)
  | 1, W, c => exitOf (W c) (dat0 (atTc W) c)
  | 2, W, c => StableHlo.after hostOps1 (W c)
  | 3, W, c => exitOf (W c) (dat1 (atTc W) c)
  | 4, W, c => StableHlo.after hostOps2 (W c)
  | 5, W, c => exitOf (W c) (dat2 (atTc W) c)
  | 6, W, c => exitOf (W c) (dat3 (atTc W) c)
  | 7, W, c => StableHlo.after hostOps4 (W c)
  | 8, W, c => exitOf (W c) (dat4 (atTc W) c)
  | 9, W, c => exitOf (W c) (dat5 (atTc W) c)
  | 10, W, c => StableHlo.after hostOps6 (W c)
  | 11, W, c => exitOf (W c) (dat6 (atTc W) c)
  | 12, W, c => exitOf (W c) (dat7 (atTc W) c)
  | _, W, c => W c

/-- The buffers item `k` may write: a host stretch's results, a region's output arrays. -/
def written : ℕ → List (Ref sig .tc)
  | 0 => hostOps0_W | 1 => outRefs cfg0 | 2 => hostOps1_W | 3 => outRefs cfg1 | 4 => hostOps2_W | 5 => outRefs cfg2
  | 6 => outRefs cfg3 | 7 => hostOps4_W | 8 => outRefs cfg4 | 9 => outRefs cfg5 | 10 => hostOps6_W | 11 => outRefs cfg6
  | 12 => outRefs cfg7 | _ => []

theorem step_same (k : ℕ) (W : Dev nD → Valuation τ sig (Elt F)) (c : Dev nD) (b : Ref sig .tc) (h : b ∉ written k) :
    step k W c (Proc.devRef .tc b) = W c (Proc.devRef .tc b) := by
  match k with
  | 0 => exact StableHlo.after_of_writes_sub hostOps0 _ hostOps0_writes h
  | 1 => exact exitOf_same _ _ launch0.win.arr_inj (A_eq0 _ c) b h
  | 2 => exact StableHlo.after_of_writes_sub hostOps1 _ hostOps1_writes h
  | 3 => exact exitOf_same _ _ launch1.win.arr_inj (A_eq1 _ c) b h
  | 4 => exact StableHlo.after_of_writes_sub hostOps2 _ hostOps2_writes h
  | 5 => exact exitOf_same _ _ launch2.win.arr_inj (A_eq2 _ c) b h
  | 6 => exact exitOf_same _ _ launch3.win.arr_inj (A_eq3 _ c) b h
  | 7 => exact StableHlo.after_of_writes_sub hostOps4 _ hostOps4_writes h
  | 8 => exact exitOf_same _ _ launch4.win.arr_inj (A_eq4 _ c) b h
  | 9 => exact exitOf_same _ _ launch5.win.arr_inj (A_eq5 _ c) b h
  | 10 => exact StableHlo.after_of_writes_sub hostOps6 _ hostOps6_writes h
  | 11 => exact exitOf_same _ _ launch6.win.arr_inj (A_eq6 _ c) b h
  | 12 => exact exitOf_same _ _ launch7.win.arr_inj (A_eq7 _ c) b h
  | _ + 13 => rfl

variable (m : (ℓ : Loc nD τ sig) → Buf (Elt F) ℓ) (ρ : Dev nD → PrngReg)

/-- The unscoped buffers' contents at boundary `k` of @main: the launch memory, then one item after another. -/
def Wn : ℕ → Dev nD → Valuation τ sig (Elt F)
  | 0 => fun c b => (s₀ m ρ).mem ((c : Dev nD), b)
  | k + 1 => step k (Wn k)

/-- A buffer none of the items `i`, …, `j - 1` writes holds at boundary `j` what it held at boundary `i`. -/
theorem Wn_same (c : Dev nD) (b : Ref sig .tc) (i : ℕ) :
    ∀ j, (∀ k < j, i ≤ k → b ∉ written k) → i ≤ j → Wn m ρ j c (Proc.devRef .tc b) = Wn m ρ i c (Proc.devRef .tc b)
  | 0, _, hij => by obtain rfl := Nat.le_zero.mp hij; rfl
  | j + 1, h, hij => by
    rcases Nat.lt_or_ge i (j + 1) with hlt | hge
    · exact (step_same j _ c b (h j j.lt_succ_self (Nat.lt_succ_iff.mp hlt))).trans
        (Wn_same c b i j (fun k hk => h k (Nat.lt_succ_of_lt hk)) (Nat.lt_succ_iff.mp hlt))
    · obtain rfl := Nat.le_antisymm hij hge; rfl

end Cert.Kernel.Hand

end
-- ==== Proof.K.Data.lean ====
import proofs.«422210_j51213190037704_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each taken at the contents its region is entered with. -/
def pdats : (p : Fin 8) → (c : Dev nD) → Dat τ (Elt F) Unit ℕ (UR sig nD τ) ℕ (Pipeline.pin (pcfgs (F := F)) adm p) c
  | ⟨0, _⟩ => dat0 (atTc (Wn m ρ 1))
  | ⟨1, _⟩ => dat1 (atTc (Wn m ρ 3))
  | ⟨2, _⟩ => dat2 (atTc (Wn m ρ 5))
  | ⟨3, _⟩ => dat3 (atTc (Wn m ρ 6))
  | ⟨4, _⟩ => dat4 (atTc (Wn m ρ 8))
  | ⟨5, _⟩ => dat5 (atTc (Wn m ρ 9))
  | ⟨6, _⟩ => dat6 (atTc (Wn m ρ 11))
  | ⟨7, _⟩ => dat7 (atTc (Wn m ρ 12))

abbrev 𝒱₀ : Variants := Variants.none
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

/-- The thread state at a boundary: every unscoped buffer at the boundary's contents, beside `R`. -/
abbrev T (W : Dev nD → Valuation τ sig (Elt F)) (c : Dev nD) : sProp 𝕄 :=
  iprop(StableHlo.held (c : Thread nD τ) (Pipeline.ucRefs τ sig) (W c) ∗ R c)

/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- A kernel region as a segment of @main from the contents `Win` to `Wout`, which are `exitOf` of them: the region
    changes its output arrays only, the generator register and `R` ride through, and nothing is owed at either end. -/
def regSeg (p : Fin 8) (lf : Pipeline.LaunchFacts (nD := nD) (τ := τ) cfgs p) (Win Wout : Dev nD → Valuation τ sig (Elt F))
    (hW : ∀ c, Wout c = exitOf (Win c) (pdats m ρ p c))
    (hbody : ∀ c, BodyObligation (pdats m ρ p c) (defs₀ (F := F)) Variants.none () Set.univ)
    (hq : ∀ c w, (pdats m ρ p c).q w = fullShare) (howed : ∀ c t, (pdats m ρ p c).owed t = 0)
    (hrec : ∀ c t, (pdats m ρ p c).recorded t = Set.univ)
    (hA : ∀ c w, (pdats m ρ p c).A w = atTc Win c (Pipeline.arrRef (cfgs p).spec w))
    (hin : ∀ c, (Pipeline.ΦA (cfgs p).spec c : sProp 𝕄) ⊢ (pdats m ρ p c).Φ 0)
    (hout : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := T Win
  post := T Wout
  X c := iprop(∃ r, prngReg c r)
  Y c := iprop(∃ r, prngReg c r)
  Z c := Pipeline.unscopedRest (Ix := Unit) (Name := ℕ) (U := UR sig nD τ) (Lvl := ℕ) (cfgs p).spec c (atTc Win c)
  hentry c := by
    rw [Pipeline.ownSems0_none]
    have hsplit := Pipeline.arrays_of_unscopedBufs (p := p) (pcfgs (F := F)) adm (pdats m ρ) lf.win lf.arr_whole c
      ((pdats m ρ p c).share_full (hq c)) (atTc Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c 0]; trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc Win c) (atTc Wout c) ((pdats m ρ p c).arrAt · (cfgs p).N)
      (fun w => by rw [atTc, hW c]; exact (exitOf_arr _ _ lf.win.arr_inj w).symm)
      (fun b hb => by
        rw [atTc, hW c]
        exact Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.Kernel.Hand

end
-- ==== Proof.K.Run.lean ====
import proofs.«422210_j51213190037704_1_alg».proof.Defs
import proofs.«422210_j51213190037704_1_alg».proof.Proof.Gen.Pre_finite_inputs
import proofs.«422210_j51213190037704_1_alg».proof.Proof.K.Data

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's thirteen items as segments, each from its boundary's contents: seven regions whose invariant is the class's own,
    and the pool, whose invariant also pins its two accumulators. -/
abbrev segs : List (Pipeline.Seg (pcfgs (F := F)) adm (pdats m ρ) () defs₀ 𝒱₀ L lv) :=
  [ .host (hseg hostOps0 hostOps0_sub hostOps0_fresh (Wn m ρ 0)),
    .region (regSeg m ρ 0 launch0 (Wn m ρ 1) (Wn m ρ 2) (fun _ => rfl) (body_obligation0 _) (fun _ _ => rfl) (fun _ _ => rfl) (fun _ _ => rfl) (A_eq0 _) (fun _ => .rfl) fun _ => .rfl),
    .host (hseg hostOps1 hostOps1_sub hostOps1_fresh (Wn m ρ 2)),
    .region (regSeg m ρ 1 launch1 (Wn m ρ 3) (Wn m ρ 4) (fun _ => rfl) (body_obligation1 _) (fun _ _ => rfl) (fun _ _ => rfl) (fun _ _ => rfl) (A_eq1 _) (fun _ => .rfl) fun _ => .rfl),
    .host (hseg hostOps2 hostOps2_sub hostOps2_fresh (Wn m ρ 4)),
    .region (regSeg m ρ 2 launch2 (Wn m ρ 5) (Wn m ρ 6) (fun _ => rfl) (body_obligation2 _) (fun _ _ => rfl) (fun _ _ => rfl) (fun _ _ => rfl) (A_eq2 _) (Φ2_first _) (Φ2_last _)),
    .region (regSeg m ρ 3 launch3 (Wn m ρ 6) (Wn m ρ 7) (fun _ => rfl) (body_obligation3 _) (fun _ _ => rfl) (fun _ _ => rfl) (fun _ _ => rfl) (A_eq3 _) (fun _ => .rfl) fun _ => .rfl),
    .host (hseg hostOps4 hostOps4_sub hostOps4_fresh (Wn m ρ 7)),
    .region (regSeg m ρ 4 launch4 (Wn m ρ 8) (Wn m ρ 9) (fun _ => rfl) (body_obligation4 _) (fun _ _ => rfl) (fun _ _ => rfl) (fun _ _ => rfl) (A_eq4 _) (fun _ => .rfl) fun _ => .rfl),
    .region (regSeg m ρ 5 launch5 (Wn m ρ 9) (Wn m ρ 10) (fun _ => rfl) (body_obligation5 _) (fun _ _ => rfl) (fun _ _ => rfl) (fun _ _ => rfl) (A_eq5 _) (fun _ => .rfl) fun _ => .rfl),
    .host (hseg hostOps6 hostOps6_sub hostOps6_fresh (Wn m ρ 10)),
    .region (regSeg m ρ 6 launch6 (Wn m ρ 11) (Wn m ρ 12) (fun _ => rfl) (body_obligation6 _) (fun _ _ => rfl) (fun _ _ => rfl) (fun _ _ => rfl) (A_eq6 _) (fun _ => .rfl) fun _ => .rfl),
    .region (regSeg m ρ 7 launch7 (Wn m ρ 12) (Wn m ρ 13) (fun _ => rfl) (body_obligation7 _) (fun _ _ => rfl) (fun _ _ => rfl) (fun _ _ => rfl) (A_eq7 _) (fun _ => .rfl) fun _ => .rfl) ]

set_option backward.isDefEq.respectTransparency.types false in
/-- Every weakly fair execution of @main terminates, nothing faulting, and every final memory holds each unscoped TensorCore
    buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Wn m ρ 13 c b) :=
  Pipeline.θ_run_regions_kit (pcfgs (F := F)) adm (pdats m ρ) () cellOf_inj emb₁ defs₀ 𝒱₀ L lv m ρ main (segs m ρ)
    (fun c Q => by rw [(main_chain c).trans (by chain_rfl : _ = Pipeline.Seg.run (segs m ρ))])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (Wn m ρ 0)) (Tₙ := fun c => iprop(StableHlo.held (c : Thread nD τ) (Pipeline.ucRefs τ sig) (Wn m ρ 13 c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show T (Wn m ρ 13) c ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Wn m ρ 0 c)
        from Pipeline.unscopedBufs_held c (Wn m ρ 0 c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn m ρ 13 c b)
    (hfin := fun c s' => by
      iintro ⟨⟨Hh, -⟩, HSI⟩
      unfold StableHlo.held
      imodintro
      iapply (pointsTo_read_all (Pipeline.ucRefs τ sig) (fun b => (((c : Thread nD τ)).1, b)) (Wn m ρ 13 c) s')
      isplitl [Hh] <;> iassumption)
    (hQ := fun s h c => h c)

variable {m ρ}

/-- A final memory read at an unscoped buffer. -/
theorem read_at {r : PUnit × MemSt nD τ sig (Elt F)} {c : Dev nD}
    (h : ∀ b ∈ Pipeline.ucRefs τ sig, r.2.mem (((c : Thread nD τ)).1, b) = Wn m ρ 13 c b) (b : Ref sig .tc)
    (hb : ¬ (Proc.devRef .tc b : DevRef τ sig).isScoped) : r.2.mem ((c.tc : Thread nD τ).loc b) = Wn m ρ 13 c (Proc.devRef .tc b) :=
  h _ (Finset.mem_filter.mpr ⟨StableHlo.devRef_mem_tcRefs b, hb⟩)

/-- A buffer no item writes ends at its launch contents. -/
theorem kept {r : PUnit × MemSt nD τ sig (Elt F)} {c : Dev nD}
    (h : ∀ b ∈ Pipeline.ucRefs τ sig, r.2.mem (((c : Thread nD τ)).1, b) = Wn m ρ 13 c b) (b : Ref sig .tc)
    (hb : ¬ (Proc.devRef .tc b : DevRef τ sig).isScoped) (hw : ∀ k < 13, 0 ≤ k → b ∉ written k) :
    r.2.mem ((c.tc : Thread nD τ).loc b) = m ((c.tc : Thread nD τ).loc b) :=
  (read_at h b hb).trans (Wn_same m ρ c b 0 13 hw (by decide))

/-- The frame: the ten argument arrays end as launched. -/
theorem frame : Cert.frame_Kernel := fun m ρ _ => (θ_run defs _ _).mono (fun r h c =>
  ⟨kept (h c) main_arg0 (by decide) (by decide), kept (h c) main_arg1 (by decide) (by decide),
   kept (h c) main_arg2 (by decide) (by decide), kept (h c) main_arg3 (by decide) (by decide),
   kept (h c) main_arg4 (by decide) (by decide), kept (h c) main_arg5 (by decide) (by decide),
   kept (h c) main_arg6 (by decide) (by decide), kept (h c) main_arg7 (by decide) (by decide),
   kept (h c) main_arg8 (by decide) (by decide), kept (h c) main_arg9 (by decide) (by decide)⟩) (run_all m ρ)

end Cert.Kernel.Hand

end
-- ==== Proof.KI.RLib.lean ====
import proofs.«422210_j51213190037704_1_alg».proof.Proof.Gen.KernelIdeal.Launch
import proofs.«422210_j51213190037704_1_alg».proof.Proof.Gen.KernelIdeal.Skeleton
import proofs.«422210_j51213190037704_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Idealize.ShloMosaic Idealize.ShloMosaic.TcCoe
open Idealize.ShloMosaic.Pipeline (Dat Cfg)

variable {F : FTy → Type} [FloatOps F]

/-- `Dat.before_in_eq_fetched` for an input window whose side conditions hold by computation, stated at the block `B`. -/
theorem before_in {cfg : Cfg sig Λ₀} {c : Dev nD} (dat : Dat τ (Elt F) Unit ℕ (UR sig nD τ) ℕ cfg c) (w : Fin cfg.W)
    (B : Fin cfg.N → (cfg.win w).block.Idx → Elt F (cfg.win w).elt)
    (hw : (cfg.win w).isOut = false := by rfl) (hlive : ∀ i, cfg.idle w i = false := by exact fun _ => rfl)
    (hclip : ∀ t t' : Fin cfg.N, (cfg.win w).index t = (cfg.win w).index t' →
      (cfg.win w).clip (cfg.grid.coords t) = (cfg.win w).clip (cfg.grid.coords t') := by exact fun _ _ _ => rfl)
    (hkeep : ∀ t, (cfg.win w).cut (cfg.grid.coords t) (dat.after w t) = dat.blockOf w t := by exact fun _ => rfl)
    (hB : ∀ t d, dat.fetched w t d = B t := by exact fun _ _ => rfl) (t : Fin cfg.N) (d) : dat.before w t d = B t :=
  (dat.before_in_eq_fetched w hw hlive hclip hkeep t d).trans (hB t d)

end Cert.KernelIdeal.Hand

end
-- ==== Proof.KI.R0.lean ====
import proofs.«422210_j51213190037704_1_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S20000x7 := Rect.unit (s := S20000x7) ![0, 0] S20000x7.size inb_S20000x7_S20000x7_0_0
abbrev r0_1 : Rect S7x64 := Rect.unit (s := S7x64) ![0, 0] S7x64.size inb_S7x64_S7x64_0_0
abbrev r0_2 : Rect S20000x64 := Rect.unit (s := S20000x64) ![0, 0] S20000x64.size inb_S20000x64_S20000x64_0_0

/-- What the body's one store leaves in the output block, from the input blocks. -/
def out0_2 (x0 : Vec F S20000x7 .f32) (x1 : Vec F S7x64 .f32) : Vec F S20000x64 .f32 :=
  View.canon [⟨r0_2, k0_pay1 (View.ld x0 r0_0) (View.ld x1 r0_1)⟩]

set_option maxHeartbeats 1000000 in
/-- On whole blocks the body keeps its inputs and leaves `out0_2` of them in the output. -/
theorem sound_kernel0 (c : Dev nD) (E : Set ℕ) (i : grid0.Coords) (arg0 : Memref sig .tc .vmem S20000x7 .f32) (harg0 : arg0.IsWhole) (arg1 : Memref sig .tc .vmem S7x64 .f32) (harg1 : arg1.IsWhole) (arg2 : Memref sig .tc .vmem S20000x64 .f32) (harg2 : arg2.IsWhole)
    (x0 : Vec F S20000x7 .f32) (x1 : Vec F S7x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S20000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

/-- Every input holds its block (`before_in`), so the body's triple applies; the invariant and what is owed pass through. -/
theorem body_obligation0 (c : Dev nD) : BodyObligation (dat0 (F := F) V c) (defs₀ (F := F)) Variants.none () Set.univ := fun t => by
  rw [bigSep_W0, bigSep_W0]
  simp only [before_in (dat0 V c) 0 (iblk0 V c 0), before_in (dat0 V c) 1 (iblk0 V c 1)]
  dsimp only [dat0, Dat.owesAt]
  show _ ⊢ wp _ _ _ (bodyAt0 t) _
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe
  iexact Ho

end Cert.KernelIdeal.Hand

end
-- ==== Proof.KI.R1.lean ====
import proofs.«422210_j51213190037704_1_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S20000x64 := Rect.unit (s := S20000x64) ![0, 0] S20000x64.size inb_S20000x64_S20000x64_0_0
abbrev r1_2 : Rect S20000x1 := Rect.unit (s := S20000x1) ![0, 0] S20000x1.size inb_S20000x1_S20000x1_0_0
abbrev r1_3 : Rect S1x64 := Rect.unit (s := S1x64) ![0, 0] S1x64.size inb_S1x64_S1x64_0_0

/-- What the body's one store leaves in the output block, from the input blocks. -/
def out1_4 (x0 : Vec F S20000x64 .f32) (x1 : Vec F S20000x64 .f32) (x2 : Vec F S20000x1 .f32) (x3 : Vec F S1x64 .f32) : Vec F S20000x64 .f32 :=
  View.canon [⟨r1_0, k1_pay1 (View.ld x0 r1_0) (View.ld x1 r1_0) (View.ld x2 r1_2) (View.ld x3 r1_3)⟩]

set_option maxHeartbeats 1000000 in
/-- On whole blocks the body keeps its inputs and leaves `out1_4` of them in the output. -/
theorem sound_kernel1 (c : Dev nD) (E : Set ℕ) (i : grid1.Coords)
    (arg1 : Memref sig .tc .vmem S20000x64 .f32) (harg1 : arg1.IsWhole) (arg2 : Memref sig .tc .vmem S20000x64 .f32) (harg2 : arg2.IsWhole)
    (arg3 : Memref sig .tc .vmem S20000x1 .f32) (harg3 : arg3.IsWhole) (arg4 : Memref sig .tc .vmem S1x64 .f32) (harg4 : arg4.IsWhole)
    (arg5 : Memref sig .tc .vmem S20000x64 .f32) (harg5 : arg5.IsWhole)
    (x0 : Vec F S20000x64 .f32) (x1 : Vec F S20000x64 .f32) (x2 : Vec F S20000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S20000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) :
    (dat1 V c).after 4 t = out1_4 (iblk1 V c 0 t) (iblk1 V c 1 t) (iblk1 V c 2 t) (iblk1 V c 3 t) := by dsimp only [dat1]

/-- Every input holds its block (`before_in`), so the body's triple applies; the invariant and what is owed pass through. -/
theorem body_obligation1 (c : Dev nD) : BodyObligation (dat1 (F := F) V c) (defs₀ (F := F)) Variants.none () Set.univ := fun t => by
  rw [bigSep_W1, bigSep_W1]
  simp only [before_in (dat1 V c) 0 (iblk1 V c 0), before_in (dat1 V c) 1 (iblk1 V c 1), before_in (dat1 V c) 2 (iblk1 V c 2), before_in (dat1 V c) 3 (iblk1 V c 3)]
  dsimp only [dat1, Dat.owesAt]
  show _ ⊢ wp _ _ _ (bodyAt1 t) _
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  iframe H0 H1 H2 H3
  isplitl [H4]; · iexists _; iexact H4
  iintro ⟨H0, H1, H2, H3, H4⟩
  iframe
  iexact Ho

end Cert.KernelIdeal.Hand

end
-- ==== Proof.KI.R2.lean ====
import proofs.«422210_j51213190037704_1_alg».proof.Proof.KI.RLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

abbrev VO2_2 : View sig .tc .vmem S64x7 .f32 := (Memref.whole cc2_stg2_0 : Memref sig .tc .vmem S64x7 .f32).view
abbrev ms2_0 (t : Fin cfg2.N) : Memref sig .tc .vmem S20000x7 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S20000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x7 .f32 := win2_2.stage (cfg2.slots t 2)
abbrev hs2_2 (t : Fin cfg2.N) : (ms2_2 t).IsWhole := hstage2_2 ((cfg2.slots t 2).cast nbuf2_2)
abbrev scM2_0 : Memref sig .tc .vmem S64x7 .f32 := Memref.whole cc2_scratch0
abbrev scM2_1 : Memref sig .tc .vmem S64x1 .f32 := Memref.whole cc2_scratch1
abbrev VS2_0 : View sig .tc .vmem S64x7 .f32 := scM2_0.view
abbrev VS2_1 : View sig .tc .vmem S64x1 .f32 := scM2_1.view

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

section
variable (c : Dev nD) (i : grid2.Coords) (arg1 : Memref sig .tc .vmem S20000x7 .f32) (harg1 : arg1.IsWhole) (arg2 : Memref sig .tc .vmem S20000x1 .i32) (harg2 : arg2.IsWhole) (arg3 : Memref sig .tc .vmem S64x7 .f32) (harg3 : arg3.IsWhole) (arg4 : Memref sig .tc .vmem S64x7 .f32) (harg4 : arg4.IsWhole) (arg5 : Memref sig .tc .vmem S64x1 .f32) (harg5 : arg5.IsWhole)

section
variable (hc0 : cond2_0 i) (hc1 : ¬cond2_1 i) (x0 : Vec F S20000x7 .f32) (x1 : Vec F S20000x1 .i32)

-- first tile: the accumulators start from zero and take this tile's sums and counts
set_option maxHeartbeats 2000000 in
def kernelRun2_A :
    Σ' (LS0 : List (View.Piece (Elt F) S64x7 .f32)), { LS1 : List (View.Piece (Elt F) S64x1 .f32) //
      ∀ (xi2 : Vec F S64x7 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc2_kernel i arg1 harg1 arg2 harg2 arg3 harg3 arg4 harg4 arg5 harg5) K } := by
  refine ⟨?_, ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

theorem scover2_A_0 (y : S64x7.Idx) : ∃ pc ∈ (kernelRun2_A c i arg1 harg1 arg2 harg2 arg3 harg3 arg4 harg4 arg5 harg5 hc0 hc1 x0 x1).1, y ∈ pc.1.set :=
  View.cover_of_tiledL _ S64x7.size (by sl_kernel_rfl) y
def sout2_A_0 : Vec F S64x7 .f32 :=
  VS2_0.read (Elt F) (VS2_0.writes (Elt F) VS2_0.junk (kernelRun2_A c i arg1 harg1 arg2 harg2 arg3 harg3 arg4 harg4 arg5 harg5 hc0 hc1 x0 x1).1)
theorem scover2_A_1 (y : S64x1.Idx) : ∃ pc ∈ (kernelRun2_A c i arg1 harg1 arg2 harg2 arg3 harg3 arg4 harg4 arg5 harg5 hc0 hc1 x0 x1).2.1, y ∈ pc.1.set :=
  View.cover_of_tiledL _ S64x1.size (by sl_kernel_rfl) y
def sout2_A_1 : Vec F S64x1 .f32 :=
  VS2_1.read (Elt F) (VS2_1.writes (Elt F) VS2_1.junk (kernelRun2_A c i arg1 harg1 arg2 harg2 arg3 harg3 arg4 harg4 arg5 harg5 hc0 hc1 x0 x1).2.1)
end

section
variable (hc0 : ¬cond2_0 i) (hc1 : ¬cond2_1 i) (x0 : Vec F S20000x7 .f32) (x1 : Vec F S20000x1 .i32) (xs0 : Vec F S64x7 .f32) (xs1 : Vec F S64x1 .f32)

-- a middle tile adds its sums and counts to what the tile before left
set_option maxHeartbeats 2000000 in
def kernelRun2_B :
    Σ' (LS0 : List (View.Piece (Elt F) S64x7 .f32)), { LS1 : List (View.Piece (Elt F) S64x1 .f32) //
      ∀ (xi2 : Vec F S64x7 .f32) (E : Set ℕ) (K : PUnit → sProp 𝕄),
        iprop(owns (c : Thread nD τ) arg1 fullShare x0 ∗ owns (c : Thread nD τ) arg2 fullShare x1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc2_kernel i arg1 harg1 arg2 harg2 arg3 harg3 arg4 harg4 arg5 harg5) K } := by
  refine ⟨?_, ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

theorem scover2_B_0 (y : S64x7.Idx) : ∃ pc ∈ (kernelRun2_B c i arg1 harg1 arg2 harg2 arg3 harg3 arg4 harg4 arg5 harg5 hc0 hc1 x0 x1 xs0 xs1).1, y ∈ pc.1.set :=
  View.cover_of_tiledL _ S64x7.size (by sl_kernel_rfl) y
def sout2_B_0 : Vec F S64x7 .f32 :=
  VS2_0.read (Elt F) (VS2_0.writes (Elt F) VS2_0.junk (kernelRun2_B c i arg1 harg1 arg2 harg2 arg3 harg3 arg4 harg4 arg5 harg5 hc0 hc1 x0 x1 xs0 xs1).1)
theorem scover2_B_1 (y : S64x1.Idx) : ∃ pc ∈ (kernelRun2_B c i arg1 harg1 arg2 harg2 arg3 harg3 arg4 harg4 arg5 harg5 hc0 hc1 x0 x1 xs0 xs1).2.1, y ∈ pc.1.set :=
  View.cover_of_tiledL _ S64x1.size (by sl_kernel_rfl) y
def sout2_B_1 : Vec F S64x1 .f32 :=
  VS2_1.read (Elt F) (VS2_1.writes (Elt F) VS2_1.junk (kernelRun2_B c i arg1 harg1 arg2 harg2 arg3 harg3 arg4 harg4 arg5 harg5 hc0 hc1 x0 x1 xs0 xs1).2.1)
end

section
variable (hc0 : ¬cond2_0 i) (hc1 : cond2_1 i) (x0 : Vec F S20000x7 .f32) (x1 : Vec F S20000x1 .i32) (xs0 : Vec F S64x7 .f32) (xs1 : Vec F S64x1 .f32)

-- last tile: adds likewise, then writes the mean (sums over counts) as the result
set_option maxHeartbeats 2000000 in
def kernelRun2_C :
    Σ' (L2 : List (View.Piece (Elt F) S64x7 .f32)) (LS0 : List (View.Piece (Elt F) S64x7 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc2_kernel i arg1 harg1 arg2 harg2 arg3 harg3 arg4 harg4 arg5 harg5) K } := by
  refine ⟨?_, ?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

theorem cover2_C_2 (y : S64x7.Idx) : ∃ pc ∈ (kernelRun2_C c i arg1 harg1 arg2 harg2 arg3 harg3 arg4 harg4 arg5 harg5 hc0 hc1 x0 x1 xs0 xs1).1, y ∈ pc.1.set :=
  View.cover_of_tiledL _ S64x7.size (by sl_kernel_rfl) y
def out2_C_2 : Vec F S64x7 .f32 :=
  VO2_2.read (Elt F) (VO2_2.writes (Elt F) VO2_2.junk (kernelRun2_C c i arg1 harg1 arg2 harg2 arg3 harg3 arg4 harg4 arg5 harg5 hc0 hc1 x0 x1 xs0 xs1).1)
theorem scover2_C_0 (y : S64x7.Idx) : ∃ pc ∈ (kernelRun2_C c i arg1 harg1 arg2 harg2 arg3 harg3 arg4 harg4 arg5 harg5 hc0 hc1 x0 x1 xs0 xs1).2.1, y ∈ pc.1.set :=
  View.cover_of_tiledL _ S64x7.size (by sl_kernel_rfl) y
def sout2_C_0 : Vec F S64x7 .f32 :=
  VS2_0.read (Elt F) (VS2_0.writes (Elt F) VS2_0.junk (kernelRun2_C c i arg1 harg1 arg2 harg2 arg3 harg3 arg4 harg4 arg5 harg5 hc0 hc1 x0 x1 xs0 xs1).2.1)
theorem scover2_C_1 (y : S64x1.Idx) : ∃ pc ∈ (kernelRun2_C c i arg1 harg1 arg2 harg2 arg3 harg3 arg4 harg4 arg5 harg5 hc0 hc1 x0 x1 xs0 xs1).2.2.1, y ∈ pc.1.set :=
  View.cover_of_tiledL _ S64x1.size (by sl_kernel_rfl) y
def sout2_C_1 : Vec F S64x1 .f32 :=
  VS2_1.read (Elt F) (VS2_1.writes (Elt F) VS2_1.junk (kernelRun2_C c i arg1 harg1 arg2 harg2 arg3 harg3 arg4 harg4 arg5 harg5 hc0 hc1 x0 x1 xs0 xs1).2.2.1)
end
end

def idleOut2 : Vec F S64x7 .f32 := VO2_2.read (Elt F) (VO2_2.writes (Elt F) VO2_2.junk [])

theorem not_cond2_1_zero (hn : 0 < cfg2.N) : ¬cond2_1 (grid2.coords ⟨0, hn⟩) := fun h => by
  have h' : 0 % 5 = 4 := (hcond2_1 ⟨0, hn⟩).mp h
  omega

theorem not_cond2_0_succ (n : ℕ) (hn : n + 1 < cfg2.N) : ¬cond2_0 (grid2.coords ⟨n + 1, hn⟩) := fun h => by
  have h' : (n + 1) % 5 = 0 := (hcond2_0 ⟨n + 1, hn⟩).mp h
  have hN : n + 1 < 5 := lt_of_lt_of_eq hn (show cfg2.N = 5 from N_2)
  omega

-- after tile n: the result and the two accumulators, each tile's step taken on what the tile before left
def outsAt2 (c : Dev nD) : (n : ℕ) → n < cfg2.N → Vec F S64x7 .f32 × Vec F S64x7 .f32 × Vec F S64x1 .f32
  | 0, hn =>
    let t : Fin cfg2.N := ⟨0, hn⟩
    have h0 : cond2_0 (grid2.coords t) := (hcond2_0 t).mpr (Nat.zero_mod _)
    (idleOut2,
      sout2_A_0 c (grid2.coords t) (ms2_0 t) (hs2_0 t) (ms2_1 t) (hs2_1 t) (ms2_2 t) (hs2_2 t) scM2_0 (Memref.isWhole_whole _) scM2_1 (Memref.isWhole_whole _) h0 (not_cond2_1_zero hn) (iblk2 V c 0 t) (iblk2 V c 1 t),
      sout2_A_1 c (grid2.coords t) (ms2_0 t) (hs2_0 t) (ms2_1 t) (hs2_1 t) (ms2_2 t) (hs2_2 t) scM2_0 (Memref.isWhole_whole _) scM2_1 (Memref.isWhole_whole _) h0 (not_cond2_1_zero hn) (iblk2 V c 0 t) (iblk2 V c 1 t))
  | n + 1, hn =>
    if h1 : (n + 1) % 5 = 4 then
      let t : Fin cfg2.N := ⟨n + 1, hn⟩
      let p := outsAt2 c n (Nat.lt_of_succ_lt hn)
      have h0 : ¬cond2_0 (grid2.coords t) := not_cond2_0_succ n hn
      have h1 : cond2_1 (grid2.coords t) := (hcond2_1 t).mpr h1
      (out2_C_2 c (grid2.coords t) (ms2_0 t) (hs2_0 t) (ms2_1 t) (hs2_1 t) (ms2_2 t) (hs2_2 t) scM2_0 (Memref.isWhole_whole _) scM2_1 (Memref.isWhole_whole _) h0 h1 (iblk2 V c 0 t) (iblk2 V c 1 t) p.2.1 p.2.2,
        sout2_C_0 c (grid2.coords t) (ms2_0 t) (hs2_0 t) (ms2_1 t) (hs2_1 t) (ms2_2 t) (hs2_2 t) scM2_0 (Memref.isWhole_whole _) scM2_1 (Memref.isWhole_whole _) h0 h1 (iblk2 V c 0 t) (iblk2 V c 1 t) p.2.1 p.2.2,
        sout2_C_1 c (grid2.coords t) (ms2_0 t) (hs2_0 t) (ms2_1 t) (hs2_1 t) (ms2_2 t) (hs2_2 t) scM2_0 (Memref.isWhole_whole _) scM2_1 (Memref.isWhole_whole _) h0 h1 (iblk2 V c 0 t) (iblk2 V c 1 t) p.2.1 p.2.2)
    else
      let t : Fin cfg2.N := ⟨n + 1, hn⟩
      let p := outsAt2 c n (Nat.lt_of_succ_lt hn)
      have h0 : ¬cond2_0 (grid2.coords t) := not_cond2_0_succ n hn
      have h1 : ¬cond2_1 (grid2.coords t) := fun h => h1 ((hcond2_1 t).mp h)
      (idleOut2,
        sout2_B_0 c (grid2.coords t) (ms2_0 t) (hs2_0 t) (ms2_1 t) (hs2_1 t) (ms2_2 t) (hs2_2 t) scM2_0 (Memref.isWhole_whole _) scM2_1 (Memref.isWhole_whole _) h0 h1 (iblk2 V c 0 t) (iblk2 V c 1 t) p.2.1 p.2.2,
        sout2_B_1 c (grid2.coords t) (ms2_0 t) (hs2_0 t) (ms2_1 t) (hs2_1 t) (ms2_2 t) (hs2_2 t) scM2_0 (Memref.isWhole_whole _) scM2_1 (Memref.isWhole_whole _) h0 h1 (iblk2 V c 0 t) (iblk2 V c 1 t) p.2.1 p.2.2)

-- before tile n the accumulators hold what tile n - 1 left (anything before the first)
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.1 ∗ owns (c : Thread nD τ) scM2_1 fullShare (outsAt2 V c n hn).2.2) ∗ rest2 c) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = (outsAt2 V c t.val t.isLt).1 := rfl

-- writes that cover every index fix the contents, whatever was there before
theorem owns_writes (c : Dev nD) {s : Shape} {e : EltTy} {M : Memref sig .tc .vmem s e} (v' : View sig .tc .vmem s e)
    {L : List (View.Piece (Elt F) s e)} (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩; unfold owns; iexists M.view.writes (Elt F) f L; isplitr
  · ipureintro; exact View.read_writes_of_cover _ _ _ _ _ h
  · iexact H

theorem leaves2 (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

-- the tile's number picks the case; that case's writes cover both accumulators (at the last tile the result too)
set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before_in (dat2 V c) 0 (iblk2 V c 0), before_in (dat2 V c) 1 (iblk2 V c 1)]
  rw [leaves2 V c 0 t (liveAt2_0 t), after2_0, leaves2 V c 1 t (liveAt2_1 t), after2_1]
  obtain ⟨n, hn⟩ := t
  rw [show (dat2 V c).owesAt () (Fin.succ ⟨n, hn⟩) = (dat2 V c).owesAt () (Fin.castSucc ⟨n, hn⟩) from rfl,
    show (dat2 V c).Φ (Fin.succ ⟨n, hn⟩) = PhiS2 V c (n + 1) hn from rfl, PhiS2,
    show (dat2 V c).Φ (Fin.castSucc ⟨n, hn⟩) = PhiS2 V c n (Nat.le_of_lt hn) from rfl]
  by_cases hc1 : cond2_1 (grid2.coords ⟨n, hn⟩)
  · rw [leaves2 V c 2 _ (liveAt2_2 _ hc1), after2_2]
    cases n with
    | zero => exact absurd hc1 (not_cond2_1_zero hn)
    | succ n =>
      have hc0 := not_cond2_0_succ n hn
      rw [PhiS2, outsAt2, dif_pos ((hcond2_1 _).mp hc1)]
      unfold out2_C_2 sout2_C_0 sout2_C_1; dsimp only
      iintro ⟨⟨⟨⟨HS0, HS1⟩, HR⟩, Hg⟩, Ho, ⟨%d0, H0⟩, ⟨%d1, H1⟩, ⟨%d2, H2⟩⟩
      iapply ((kernelRun2_C c _ _ _ _ _ _ _ _ _ _ _ hc0 hc1 (iblk2 V c 0 _) (iblk2 V c 1 _) _ _).2.2.2 Set.univ _)
      iframe H0 H1 HS0 HS1
      isplitl [H2]; · iexists _; iexact H2
      iintro ⟨H0, H1, H2, HS0, HS1⟩
      iframe HR Hg Ho H0 H1
      isplitl [HS0 HS1]
      · isplitl [HS0]
        · iapply owns_writes c VS2_0 (scover2_C_0 c _ _ _ _ _ _ _ _ _ _ _ _ _ _ _ _ _); iexact HS0
        · iapply owns_writes c VS2_1 (scover2_C_1 c _ _ _ _ _ _ _ _ _ _ _ _ _ _ _ _ _); iexact HS1
      iapply owns_writes c VO2_2 (cover2_C_2 c _ _ _ _ _ _ _ _ _ _ _ _ _ _ _ _ _); iexact H2
  · rw [Dat.leavesExact_idle (dat2 V c) 2 _ (idleAt2_2 _ hc1) (noFlush2_2 _ hc1)]
    cases n with
    | zero =>
      rw [PhiS2, outsAt2, PhiA2_eq]
      unfold sout2_A_0 sout2_A_1; dsimp only
      iintro ⟨⟨⟨⟨HS0, HS1⟩, HR⟩, Hg⟩, Ho, ⟨%d0, H0⟩, ⟨%d1, H1⟩, ⟨%d2, H2⟩⟩
      iapply ((kernelRun2_A c _ _ _ _ _ _ _ _ _ _ _ _ hc1 (iblk2 V c 0 _) (iblk2 V c 1 _)).2.2 _ Set.univ _)
      iframe H0 H1 H2 HS0 HS1
      iintro ⟨H0, H1, H2, HS0, HS1⟩
      iframe HR Hg Ho H0 H1
      isplitl [HS0 HS1]
      · isplitl [HS0]
        · iapply owns_writes c VS2_0 (scover2_A_0 c _ _ _ _ _ _ _ _ _ _ _ _ _ _ _); iexact HS0
        · iapply owns_writes c VS2_1 (scover2_A_1 c _ _ _ _ _ _ _ _ _ _ _ _ _ _ _); iexact HS1
      iexists _; iexact H2
    | succ n =>
      have hc0 := not_cond2_0_succ n hn
      rw [PhiS2, outsAt2, dif_neg (fun h => hc1 ((hcond2_1 _).mpr h))]
      unfold sout2_B_0 sout2_B_1; dsimp only
      iintro ⟨⟨⟨⟨HS0, HS1⟩, HR⟩, Hg⟩, Ho, ⟨%d0, H0⟩, ⟨%d1, H1⟩, ⟨%d2, H2⟩⟩
      iapply ((kernelRun2_B c _ _ _ _ _ _ _ _ _ _ _ hc0 hc1 (iblk2 V c 0 _) (iblk2 V c 1 _) _ _).2.2 _ Set.univ _)
      iframe H0 H1 H2 HS0 HS1
      iintro ⟨H0, H1, H2, HS0, HS1⟩
      iframe HR Hg Ho H0 H1
      isplitl [HS0 HS1]
      · isplitl [HS0]
        · iapply owns_writes c VS2_0 (scover2_B_0 c _ _ _ _ _ _ _ _ _ _ _ _ _ _ _ _ _); iexact HS0
        · iapply owns_writes c VS2_1 (scover2_B_1 c _ _ _ _ _ _ _ _ _ _ _ _ _ _ _ _ _); iexact HS1
      iexists _; iexact H2

theorem body_obligation2 (c : Dev nD) : BodyObligation (dat2 (F := F) V c) (defs₀ (F := F)) Variants.none () Set.univ := fun t => by
  rw [bigSep_W2, bigSep_W2]
  exact sound_body2 V c t

theorem Φ2_first (c : Dev nD) : (Pipeline.ΦA spec2 c : sProp 𝕄) ⊢ (dat2 V c).Φ 0 := Entails.refl _

-- after the last tile what the accumulators hold is forgotten
theorem Φ2_last (c : Dev nD) : (dat2 V c).Φ (Fin.last _) ⊢ (Pipeline.ΦA spec2 c : sProp 𝕄) := by
  rw [PhiA2_eq]
  show iprop(iprop(iprop(_ ∗ _) ∗ _) ∗ _) ⊢ _
  iintro ⟨⟨⟨HS0, HS1⟩, HR⟩, Hg⟩
  iframe HR Hg
  isplitl [HS0]; · iexists _; iexact HS0
  iexists _; iexact HS1

end Cert.KernelIdeal.Hand

end
-- ==== Proof.KI.R3.lean ====
import proofs.«422210_j51213190037704_1_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S20000x64 := Rect.unit (s := S20000x64) ![0, 0] S20000x64.size inb_S20000x64_S20000x64_0_0
abbrev r3_1 : Rect S64x32 := Rect.unit (s := S64x32) ![0, 0] S64x32.size inb_S64x32_S64x32_0_0
abbrev r3_2 : Rect S20000x32 := Rect.unit (s := S20000x32) ![0, 0] S20000x32.size inb_S20000x32_S20000x32_0_0

/-- What the body's one store leaves in the output block, from the input blocks. -/
def out3_2 (x0 : Vec F S20000x64 .f32) (x1 : Vec F S64x32 .f32) : Vec F S20000x32 .f32 :=
  View.canon [⟨r3_2, k3_pay1 (View.ld x0 r3_0) (View.ld x1 r3_1)⟩]

set_option maxHeartbeats 1000000 in
/-- On whole blocks the body keeps its inputs and leaves `out3_2` of them in the output. -/
theorem sound_kernel3 (c : Dev nD) (E : Set ℕ) (i : grid3.Coords) (arg1 : Memref sig .tc .vmem S20000x64 .f32) (harg1 : arg1.IsWhole)
    (arg2 : Memref sig .tc .vmem S64x32 .f32) (harg2 : arg2.IsWhole) (arg3 : Memref sig .tc .vmem S20000x32 .f32) (harg3 : arg3.IsWhole)
    (x0 : Vec F S20000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S20000x32.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = out3_2 (iblk3 V c 0 t) (iblk3 V c 1 t) := by dsimp only [dat3]

/-- Every input holds its block (`before_in`), so the body's triple applies; the invariant and what is owed pass through. -/
theorem body_obligation3 (c : Dev nD) : BodyObligation (dat3 (F := F) V c) (defs₀ (F := F)) Variants.none () Set.univ := fun t => by
  rw [bigSep_W3, bigSep_W3]
  simp only [before_in (dat3 V c) 0 (iblk3 V c 0), before_in (dat3 V c) 1 (iblk3 V c 1)]
  dsimp only [dat3, Dat.owesAt]
  show _ ⊢ wp _ _ _ (bodyAt3 t) _
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe
  iexact Ho

end Cert.KernelIdeal.Hand

end
-- ==== Proof.KI.R4.lean ====
import proofs.«422210_j51213190037704_1_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S20000x32 := Rect.unit (s := S20000x32) ![0, 0] S20000x32.size inb_S20000x32_S20000x32_0_0
abbrev r4_1 : Rect S20000x1 := Rect.unit (s := S20000x1) ![0, 0] S20000x1.size inb_S20000x1_S20000x1_0_0
abbrev r4_2 : Rect S1x32 := Rect.unit (s := S1x32) ![0, 0] S1x32.size inb_S1x32_S1x32_0_0

/-- What the body's one store leaves in the output block, from the input blocks. -/
def out4_4 (x0 : Vec F S20000x32 .f32) (x1 : Vec F S20000x32 .f32) (x2 : Vec F S20000x1 .f32) (x3 : Vec F S1x32 .f32) : Vec F S20000x32 .f32 :=
  View.canon [⟨r4_0, k4_pay1 (View.ld x0 r4_0) (View.ld x1 r4_0) (View.ld x2 r4_1) (View.ld x3 r4_2)⟩]

set_option maxHeartbeats 1000000 in
/-- On whole blocks the body keeps its inputs and leaves `out4_4` of them in the output. -/
theorem sound_kernel4 (c : Dev nD) (E : Set ℕ) (i : grid4.Coords) (arg1 : Memref sig .tc .vmem S20000x32 .f32) (harg1 : arg1.IsWhole) (arg2 : Memref sig .tc .vmem S20000x32 .f32) (harg2 : arg2.IsWhole) (arg3 : Memref sig .tc .vmem S20000x1 .f32) (harg3 : arg3.IsWhole) (arg4 : Memref sig .tc .vmem S1x32 .f32) (harg4 : arg4.IsWhole) (arg5 : Memref sig .tc .vmem S20000x32 .f32) (harg5 : arg5.IsWhole)
    (x0 : Vec F S20000x32 .f32) (x1 : Vec F S20000x32 .f32) (x2 : Vec F S20000x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__combine_kernel i arg1 harg1 arg2 harg2 arg3 harg3 arg4 harg4 arg5 harg5) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S20000x32.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := rfl

theorem after4_4 (c : Dev nD) (t : Fin cfg4.N) : (dat4 V c).after 4 t = out4_4 (iblk4 V c 0 t) (iblk4 V c 1 t) (iblk4 V c 2 t) (iblk4 V c 3 t) := by dsimp only [dat4]

/-- Every input holds its block (`before_in`), so the body's triple applies; the invariant and what is owed pass through. -/
theorem body_obligation4 (c : Dev nD) : BodyObligation (dat4 (F := F) V c) (defs₀ (F := F)) Variants.none () Set.univ := fun t => by
  rw [bigSep_W4, bigSep_W4]
  simp only [before_in (dat4 V c) 0 (iblk4 V c 0), before_in (dat4 V c) 1 (iblk4 V c 1), before_in (dat4 V c) 2 (iblk4 V c 2), before_in (dat4 V c) 3 (iblk4 V c 3)]
  dsimp only [dat4, Dat.owesAt]
  show _ ⊢ wp _ _ _ (bodyAt4 t) _
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  iframe H0 H1 H2 H3
  isplitl [H4]; · iexists _; iexact H4
  iintro ⟨H0, H1, H2, H3, H4⟩
  iframe
  iexact Ho

end Cert.KernelIdeal.Hand

end
-- ==== Proof.KI.R5.lean ====
import proofs.«422210_j51213190037704_1_alg».proof.Proof.KI.RLib
import proofs.«422210_j51213190037704_1_alg».proof.Proof.KI.R3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S20000x64 := Rect.unit (s := S20000x64) ![0, 0] S20000x64.size inb_S20000x64_S20000x64_0_0
abbrev r5_1 : Rect S64x32 := Rect.unit (s := S64x32) ![0, 0] S64x32.size inb_S64x32_S64x32_0_0
abbrev r5_2 : Rect S20000x32 := Rect.unit (s := S20000x32) ![0, 0] S20000x32.size inb_S20000x32_S20000x32_0_0

/-- What the body's one store leaves in the output block, from the input blocks. -/
def out5_2 (x0 : Vec F S20000x64 .f32) (x1 : Vec F S64x32 .f32) : Vec F S20000x32 .f32 :=
  View.canon [⟨r5_2, k5_pay1 (View.ld x0 r5_0) (View.ld x1 r5_1)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := rfl

theorem after5_2 (c : Dev nD) (t : Fin cfg5.N) : (dat5 V c).after 2 t = out5_2 (iblk5 V c 0 t) (iblk5 V c 1 t) := by dsimp only [dat5]

/-- Region 5's body is region 3's program under other names, so `sound_kernel3` applies, every input holding its block (`before_in`). -/
theorem body_obligation5 (c : Dev nD) : BodyObligation (dat5 (F := F) V c) (defs₀ (F := F)) Variants.none () Set.univ := fun t => by
  rw [bigSep_W5, bigSep_W5]
  simp only [before_in (dat5 V c) 0 (iblk5 V c 0), before_in (dat5 V c) 1 (iblk5 V c 1)]
  dsimp only [dat5, Dat.owesAt]
  rw [show out5_2 (F := F) = out3_2 from rfl]
  show _ ⊢ wp _ _ _ (bodyAt5 t) _
  iintro ⟨HΦ, Ho, ⟨%d0, H0⟩, ⟨%d1, H1⟩, ⟨%d2, H2⟩⟩
  iapply (sound_kernel3 c Set.univ (grid5.coords t) _ (hstage5_0 _) _ (hstage5_1 _) _ (hstage5_2 _) (iblk5 V c 0 t) (iblk5 V c 1 t) _)
  iframe H0 H1
  isplitl [H2]; · iexists _; iexact H2
  iintro ⟨H0, H1, H2⟩
  iframe
  iexact Ho

end Cert.KernelIdeal.Hand

end
-- ==== Proof.KI.R6.lean ====
import proofs.«422210_j51213190037704_1_alg».proof.Proof.KI.RLib
import proofs.«422210_j51213190037704_1_alg».proof.Proof.KI.R4

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S20000x32 := Rect.unit (s := S20000x32) ![0, 0] S20000x32.size inb_S20000x32_S20000x32_0_0
abbrev r6_1 : Rect S20000x1 := Rect.unit (s := S20000x1) ![0, 0] S20000x1.size inb_S20000x1_S20000x1_0_0
abbrev r6_2 : Rect S1x32 := Rect.unit (s := S1x32) ![0, 0] S1x32.size inb_S1x32_S1x32_0_0

/-- What the body's one store leaves in the output block, from the input blocks. -/
def out6_4 (x0 : Vec F S20000x32 .f32) (x1 : Vec F S20000x32 .f32) (x2 : Vec F S20000x1 .f32) (x3 : Vec F S1x32 .f32) : Vec F S20000x32 .f32 :=
  View.canon [⟨r6_0, k6_pay1 (View.ld x0 r6_0) (View.ld x1 r6_0) (View.ld x2 r6_1) (View.ld x3 r6_2)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := rfl

theorem after6_4 (c : Dev nD) (t : Fin cfg6.N) : (dat6 V c).after 4 t = out6_4 (iblk6 V c 0 t) (iblk6 V c 1 t) (iblk6 V c 2 t) (iblk6 V c 3 t) := by dsimp only [dat6]

/-- Region 6's body is region 4's program under other names, so `sound_kernel4` applies, every input holding its block (`before_in`). -/
theorem body_obligation6 (c : Dev nD) : BodyObligation (dat6 (F := F) V c) (defs₀ (F := F)) Variants.none () Set.univ := fun t => by
  rw [bigSep_W6, bigSep_W6]
  simp only [before_in (dat6 V c) 0 (iblk6 V c 0), before_in (dat6 V c) 1 (iblk6 V c 1), before_in (dat6 V c) 2 (iblk6 V c 2), before_in (dat6 V c) 3 (iblk6 V c 3)]
  dsimp only [dat6, Dat.owesAt]
  rw [show out6_4 (F := F) = out4_4 from rfl]
  show _ ⊢ wp _ _ _ (bodyAt6 t) _
  iintro ⟨HΦ, Ho, ⟨%d0, H0⟩, ⟨%d1, H1⟩, ⟨%d2, H2⟩, ⟨%d3, H3⟩, ⟨%d4, H4⟩⟩
  iapply (sound_kernel4 c Set.univ (grid6.coords t) _ (hstage6_0 _) _ (hstage6_1 _) _ (hstage6_2 _) _ (hstage6_3 _) _ (hstage6_4 _) (iblk6 V c 0 t) (iblk6 V c 1 t) (iblk6 V c 2 t) (iblk6 V c 3 t) _)
  iframe H0 H1 H2 H3
  isplitl [H4]; · iexists _; iexact H4
  iintro ⟨H0, H1, H2, H3, H4⟩
  iframe
  iexact Ho

end Cert.KernelIdeal.Hand

end
-- ==== Proof.KI.R7.lean ====
import proofs.«422210_j51213190037704_1_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S20000x32 := Rect.unit (s := S20000x32) ![0, 0] S20000x32.size inb_S20000x32_S20000x32_0_0

/-- What the body's one store leaves in the output block, from the input blocks. -/
def out7_3 (x0 : Vec F S20000x32 .f32) (x1 : Vec F S20000x32 .f32) (x2 : Vec F S20000x32 .f32) : Vec F S20000x32 .f32 :=
  View.canon [⟨r7_0, k7_pay1 (View.ld x0 r7_0) (View.ld x2 r7_0) (View.ld x1 r7_0)⟩]

set_option maxHeartbeats 1000000 in
/-- On whole blocks the body keeps its inputs and leaves `out7_3` of them in the output. -/
theorem sound_kernel7 (c : Dev nD) (E : Set ℕ) (i : grid7.Coords) (arg1 : Memref sig .tc .vmem S20000x32 .f32) (harg1 : arg1.IsWhole) (arg2 : Memref sig .tc .vmem S20000x32 .f32) (harg2 : arg2.IsWhole) (arg3 : Memref sig .tc .vmem S20000x32 .f32) (harg3 : arg3.IsWhole) (arg4 : Memref sig .tc .vmem S20000x32 .f32) (harg4 : arg4.IsWhole)
    (x0 : Vec F S20000x32 .f32) (x1 : Vec F S20000x32 .f32) (x2 : Vec F S20000x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__reparam_kernel i arg1 harg1 arg2 harg2 arg3 harg3 arg4 harg4) K := by
  simp only [cc7__reparam_kernel_eq_skeleton]; unfold cc7__reparam_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S20000x32.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := rfl

theorem after7_3 (c : Dev nD) (t : Fin cfg7.N) : (dat7 V c).after 3 t = out7_3 (iblk7 V c 0 t) (iblk7 V c 1 t) (iblk7 V c 2 t) := by dsimp only [dat7]

/-- Every input holds its block (`before_in`), so the body's triple applies; the invariant and what is owed pass through. -/
theorem body_obligation7 (c : Dev nD) : BodyObligation (dat7 (F := F) V c) (defs₀ (F := F)) Variants.none () Set.univ := fun t => by
  rw [bigSep_W7, bigSep_W7]
  simp only [before_in (dat7 V c) 0 (iblk7 V c 0), before_in (dat7 V c) 1 (iblk7 V c 1), before_in (dat7 V c) 2 (iblk7 V c 2)]
  dsimp only [dat7, Dat.owesAt]
  show _ ⊢ wp _ _ _ (bodyAt7 t) _
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  iframe H0 H1 H2
  isplitl [H3]; · iexists _; iexact H3
  iintro ⟨H0, H1, H2, H3⟩
  iframe
  iexact Ho

end Cert.KernelIdeal.Hand

end
-- ==== Proof.KI.Fold.lean ====
import proofs.«422210_j51213190037704_1_alg».proof.Proof.Gen.KernelIdeal.Regions
import proofs.«422210_j51213190037704_1_alg».proof.Proof.KI.R0
import proofs.«422210_j51213190037704_1_alg».proof.Proof.KI.R1
import proofs.«422210_j51213190037704_1_alg».proof.Proof.KI.R2
import proofs.«422210_j51213190037704_1_alg».proof.Proof.KI.R3
import proofs.«422210_j51213190037704_1_alg».proof.Proof.KI.R4
import proofs.«422210_j51213190037704_1_alg».proof.Proof.KI.R5
import proofs.«422210_j51213190037704_1_alg».proof.Proof.KI.R6
import proofs.«422210_j51213190037704_1_alg».proof.Proof.KI.R7

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]

section Exit

variable {cfg : Pipeline.Cfg sig Λ₀} {c : Dev nD}
  (Win : Valuation τ sig (Elt F)) (dat : Dat τ (Elt F) Unit ℕ (UR sig nD τ) ℕ cfg c)

/-- What a region leaves in the unscoped buffers: each of its arrays at what its write-backs fold to, every other buffer as entered. -/
def exitOf : Valuation τ sig (Elt F) := Pipeline.withArrays cfg.spec c Win fun w => dat.arrAt w cfg.N

theorem exitOf_arr (hinj : Function.Injective (Pipeline.arrRef cfg.spec)) (w : Fin cfg.W) : exitOf Win dat (Proc.devRef .tc (Pipeline.arrRef cfg.spec w)) = dat.arrAt w cfg.N :=
  Pipeline.withArrays_arr cfg.spec hinj c _ _ w

/-- The arrays a pipeline writes back: its output windows'. -/
def outRefs (cfg : Pipeline.Cfg sig Λ₀) : List (Ref sig .tc) :=
  ((List.finRange cfg.W).filter fun w => (cfg.win w).isOut).map (Pipeline.arrRef cfg.spec)

/-- A region changes its output windows' arrays only. -/
theorem exitOf_same (hinj : Function.Injective (Pipeline.arrRef cfg.spec)) (hA : ∀ w, dat.A w = Win (Proc.devRef .tc (Pipeline.arrRef cfg.spec w))) (b : Ref sig .tc) (hb : b ∉ outRefs cfg) :
    exitOf Win dat (Proc.devRef .tc b) = Win (Proc.devRef .tc b) := by
  by_cases h : ∃ w, Pipeline.arrRef cfg.spec w = b
  · obtain ⟨w, rfl⟩ := h
    have hw : (cfg.win w).isOut = false := Bool.eq_false_iff.mpr fun hw =>
      hb (List.mem_map.mpr ⟨w, List.mem_filter.mpr ⟨List.mem_finRange w, hw⟩, rfl⟩)
    exact (exitOf_arr Win dat hinj w).trans ((dat.arrAt_in w hw _).trans (hA w))
  · exact Pipeline.withArrays_of_ne cfg.spec c _ _ b fun w e => h ⟨w, e⟩

end Exit

/-- A valuation read at the TensorCore's references, as a region's proof data take it. -/
abbrev atTc (W : Dev nD → Valuation τ sig (Elt F)) : (c : Dev nD) → (b : Ref sig .tc) → Buf (Elt F) ((c : Thread nD τ).loc b) := fun c b => W c b

/-- @main's thirteen items as maps of the unscoped buffers' contents: a host stretch applies its operations, a region
    is `exitOf` at its proof data taken at the contents it is entered with. -/
def step : ℕ → (Dev nD → Valuation τ sig (Elt F)) → Dev nD → Valuation τ sig (Elt F)
  | 0, W, c => StableHlo.after hostOps0 (W c)
  | 1, W, c => exitOf (W c) (dat0 (atTc W) c)
  | 2, W, c => StableHlo.after hostOps1 (W c)
  | 3, W, c => exitOf (W c) (dat1 (atTc W) c)
  | 4, W, c => StableHlo.after hostOps2 (W c)
  | 5, W, c => exitOf (W c) (dat2 (atTc W) c)
  | 6, W, c => exitOf (W c) (dat3 (atTc W) c)
  | 7, W, c => StableHlo.after hostOps4 (W c)
  | 8, W, c => exitOf (W c) (dat4 (atTc W) c)
  | 9, W, c => exitOf (W c) (dat5 (atTc W) c)
  | 10, W, c => StableHlo.after hostOps6 (W c)
  | 11, W, c => exitOf (W c) (dat6 (atTc W) c)
  | 12, W, c => exitOf (W c) (dat7 (atTc W) c)
  | _, W, c => W c

/-- The buffers item `k` may write: a host stretch's results, a region's output arrays. -/
def written : ℕ → List (Ref sig .tc)
  | 0 => hostOps0_W | 1 => outRefs cfg0 | 2 => hostOps1_W | 3 => outRefs cfg1 | 4 => hostOps2_W | 5 => outRefs cfg2
  | 6 => outRefs cfg3 | 7 => hostOps4_W | 8 => outRefs cfg4 | 9 => outRefs cfg5 | 10 => hostOps6_W | 11 => outRefs cfg6
  | 12 => outRefs cfg7 | _ => []

theorem step_same (k : ℕ) (W : Dev nD → Valuation τ sig (Elt F)) (c : Dev nD) (b : Ref sig .tc) (h : b ∉ written k) :
    step k W c (Proc.devRef .tc b) = W c (Proc.devRef .tc b) := by
  match k with
  | 0 => exact StableHlo.after_of_writes_sub hostOps0 _ hostOps0_writes h
  | 1 => exact exitOf_same _ _ launch0.win.arr_inj (A_eq0 _ c) b h
  | 2 => exact StableHlo.after_of_writes_sub hostOps1 _ hostOps1_writes h
  | 3 => exact exitOf_same _ _ launch1.win.arr_inj (A_eq1 _ c) b h
  | 4 => exact StableHlo.after_of_writes_sub hostOps2 _ hostOps2_writes h
  | 5 => exact exitOf_same _ _ launch2.win.arr_inj (A_eq2 _ c) b h
  | 6 => exact exitOf_same _ _ launch3.win.arr_inj (A_eq3 _ c) b h
  | 7 => exact StableHlo.after_of_writes_sub hostOps4 _ hostOps4_writes h
  | 8 => exact exitOf_same _ _ launch4.win.arr_inj (A_eq4 _ c) b h
  | 9 => exact exitOf_same _ _ launch5.win.arr_inj (A_eq5 _ c) b h
  | 10 => exact StableHlo.after_of_writes_sub hostOps6 _ hostOps6_writes h
  | 11 => exact exitOf_same _ _ launch6.win.arr_inj (A_eq6 _ c) b h
  | 12 => exact exitOf_same _ _ launch7.win.arr_inj (A_eq7 _ c) b h
  | _ + 13 => rfl

variable (m : (ℓ : Loc nD τ sig) → Buf (Elt F) ℓ) (ρ : Dev nD → PrngReg)

/-- The unscoped buffers' contents at boundary `k` of @main: the launch memory, then one item after another. -/
def Wn : ℕ → Dev nD → Valuation τ sig (Elt F)
  | 0 => fun c b => (s₀ m ρ).mem ((c : Dev nD), b)
  | k + 1 => step k (Wn k)

/-- A buffer none of the items `i`, …, `j - 1` writes holds at boundary `j` what it held at boundary `i`. -/
theorem Wn_same (c : Dev nD) (b : Ref sig .tc) (i : ℕ) :
    ∀ j, (∀ k < j, i ≤ k → b ∉ written k) → i ≤ j → Wn m ρ j c (Proc.devRef .tc b) = Wn m ρ i c (Proc.devRef .tc b)
  | 0, _, hij => by obtain rfl := Nat.le_zero.mp hij; rfl
  | j + 1, h, hij => by
    rcases Nat.lt_or_ge i (j + 1) with hlt | hge
    · exact (step_same j _ c b (h j j.lt_succ_self (Nat.lt_succ_iff.mp hlt))).trans
        (Wn_same c b i j (fun k hk => h k (Nat.lt_succ_of_lt hk)) (Nat.lt_succ_iff.mp hlt))
    · obtain rfl := Nat.le_antisymm hij hge; rfl

end Cert.KernelIdeal.Hand

end
-- ==== Proof.KI.Data.lean ====
import proofs.«422210_j51213190037704_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each taken at the contents its region is entered with. -/
def pdats : (p : Fin 8) → (c : Dev nD) → Dat τ (Elt F) Unit ℕ (UR sig nD τ) ℕ (Pipeline.pin (pcfgs (F := F)) adm p) c
  | ⟨0, _⟩ => dat0 (atTc (Wn m ρ 1))
  | ⟨1, _⟩ => dat1 (atTc (Wn m ρ 3))
  | ⟨2, _⟩ => dat2 (atTc (Wn m ρ 5))
  | ⟨3, _⟩ => dat3 (atTc (Wn m ρ 6))
  | ⟨4, _⟩ => dat4 (atTc (Wn m ρ 8))
  | ⟨5, _⟩ => dat5 (atTc (Wn m ρ 9))
  | ⟨6, _⟩ => dat6 (atTc (Wn m ρ 11))
  | ⟨7, _⟩ => dat7 (atTc (Wn m ρ 12))

abbrev 𝒱₀ : Variants := Variants.none
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

/-- The thread state at a boundary: every unscoped buffer at the boundary's contents, beside `R`. -/
abbrev T (W : Dev nD → Valuation τ sig (Elt F)) (c : Dev nD) : sProp 𝕄 :=
  iprop(StableHlo.held (c : Thread nD τ) (Pipeline.ucRefs τ sig) (W c) ∗ R c)

/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- A kernel region as a segment of @main from the contents `Win` to `Wout`, which are `exitOf` of them: the region
    changes its output arrays only, the generator register and `R` ride through, and nothing is owed at either end. -/
def regSeg (p : Fin 8) (lf : Pipeline.LaunchFacts (nD := nD) (τ := τ) cfgs p) (Win Wout : Dev nD → Valuation τ sig (Elt F))
    (hW : ∀ c, Wout c = exitOf (Win c) (pdats m ρ p c))
    (hbody : ∀ c, BodyObligation (pdats m ρ p c) (defs₀ (F := F)) Variants.none () Set.univ)
    (hq : ∀ c w, (pdats m ρ p c).q w = fullShare) (howed : ∀ c t, (pdats m ρ p c).owed t = 0)
    (hrec : ∀ c t, (pdats m ρ p c).recorded t = Set.univ)
    (hA : ∀ c w, (pdats m ρ p c).A w = atTc Win c (Pipeline.arrRef (cfgs p).spec w))
    (hin : ∀ c, (Pipeline.ΦA (cfgs p).spec c : sProp 𝕄) ⊢ (pdats m ρ p c).Φ 0)
    (hout : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := T Win
  post := T Wout
  X c := iprop(∃ r, prngReg c r)
  Y c := iprop(∃ r, prngReg c r)
  Z c := Pipeline.unscopedRest (Ix := Unit) (Name := ℕ) (U := UR sig nD τ) (Lvl := ℕ) (cfgs p).spec c (atTc Win c)
  hentry c := by
    rw [Pipeline.ownSems0_none]
    have hsplit := Pipeline.arrays_of_unscopedBufs (p := p) (pcfgs (F := F)) adm (pdats m ρ) lf.win lf.arr_whole c
      ((pdats m ρ p c).share_full (hq c)) (atTc Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c 0]; trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc Win c) (atTc Wout c) ((pdats m ρ p c).arrAt · (cfgs p).N)
      (fun w => by rw [atTc, hW c]; exact (exitOf_arr _ _ lf.win.arr_inj w).symm)
      (fun b hb => by
        rw [atTc, hW c]
        exact Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.KernelIdeal.Hand

end
-- ==== Proof.KI.Run.lean ====
import proofs.«422210_j51213190037704_1_alg».proof.Defs
import proofs.«422210_j51213190037704_1_alg».proof.Proof.Gen.Pre_finite_inputs
import proofs.«422210_j51213190037704_1_alg».proof.Proof.KI.Data

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's thirteen items as segments, each from its boundary's contents: seven regions whose invariant is the class's own,
    and the pool, whose invariant also pins its two accumulators. -/
abbrev segs : List (Pipeline.Seg (pcfgs (F := F)) adm (pdats m ρ) () defs₀ 𝒱₀ L lv) :=
  [ .host (hseg hostOps0 hostOps0_sub hostOps0_fresh (Wn m ρ 0)),
    .region (regSeg m ρ 0 launch0 (Wn m ρ 1) (Wn m ρ 2) (fun _ => rfl) (body_obligation0 _) (fun _ _ => rfl) (fun _ _ => rfl) (fun _ _ => rfl) (A_eq0 _) (fun _ => .rfl) fun _ => .rfl),
    .host (hseg hostOps1 hostOps1_sub hostOps1_fresh (Wn m ρ 2)),
    .region (regSeg m ρ 1 launch1 (Wn m ρ 3) (Wn m ρ 4) (fun _ => rfl) (body_obligation1 _) (fun _ _ => rfl) (fun _ _ => rfl) (fun _ _ => rfl) (A_eq1 _) (fun _ => .rfl) fun _ => .rfl),
    .host (hseg hostOps2 hostOps2_sub hostOps2_fresh (Wn m ρ 4)),
    .region (regSeg m ρ 2 launch2 (Wn m ρ 5) (Wn m ρ 6) (fun _ => rfl) (body_obligation2 _) (fun _ _ => rfl) (fun _ _ => rfl) (fun _ _ => rfl) (A_eq2 _) (Φ2_first _) (Φ2_last _)),
    .region (regSeg m ρ 3 launch3 (Wn m ρ 6) (Wn m ρ 7) (fun _ => rfl) (body_obligation3 _) (fun _ _ => rfl) (fun _ _ => rfl) (fun _ _ => rfl) (A_eq3 _) (fun _ => .rfl) fun _ => .rfl),
    .host (hseg hostOps4 hostOps4_sub hostOps4_fresh (Wn m ρ 7)),
    .region (regSeg m ρ 4 launch4 (Wn m ρ 8) (Wn m ρ 9) (fun _ => rfl) (body_obligation4 _) (fun _ _ => rfl) (fun _ _ => rfl) (fun _ _ => rfl) (A_eq4 _) (fun _ => .rfl) fun _ => .rfl),
    .region (regSeg m ρ 5 launch5 (Wn m ρ 9) (Wn m ρ 10) (fun _ => rfl) (body_obligation5 _) (fun _ _ => rfl) (fun _ _ => rfl) (fun _ _ => rfl) (A_eq5 _) (fun _ => .rfl) fun _ => .rfl),
    .host (hseg hostOps6 hostOps6_sub hostOps6_fresh (Wn m ρ 10)),
    .region (regSeg m ρ 6 launch6 (Wn m ρ 11) (Wn m ρ 12) (fun _ => rfl) (body_obligation6 _) (fun _ _ => rfl) (fun _ _ => rfl) (fun _ _ => rfl) (A_eq6 _) (fun _ => .rfl) fun _ => .rfl),
    .region (regSeg m ρ 7 launch7 (Wn m ρ 12) (Wn m ρ 13) (fun _ => rfl) (body_obligation7 _) (fun _ _ => rfl) (fun _ _ => rfl) (fun _ _ => rfl) (A_eq7 _) (fun _ => .rfl) fun _ => .rfl) ]

set_option backward.isDefEq.respectTransparency.types false in
/-- Every weakly fair execution of @main terminates, nothing faulting, and every final memory holds each unscoped TensorCore
    buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Wn m ρ 13 c b) :=
  Pipeline.θ_run_regions_kit (pcfgs (F := F)) adm (pdats m ρ) () cellOf_inj emb₁ defs₀ 𝒱₀ L lv m ρ main (segs m ρ)
    (fun c Q => by rw [(main_chain c).trans (by chain_rfl : _ = Pipeline.Seg.run (segs m ρ))])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (Wn m ρ 0)) (Tₙ := fun c => iprop(StableHlo.held (c : Thread nD τ) (Pipeline.ucRefs τ sig) (Wn m ρ 13 c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show T (Wn m ρ 13) c ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Wn m ρ 0 c)
        from Pipeline.unscopedBufs_held c (Wn m ρ 0 c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn m ρ 13 c b)
    (hfin := fun c s' => by
      iintro ⟨⟨Hh, -⟩, HSI⟩
      unfold StableHlo.held
      imodintro
      iapply (pointsTo_read_all (Pipeline.ucRefs τ sig) (fun b => (((c : Thread nD τ)).1, b)) (Wn m ρ 13 c) s')
      isplitl [Hh] <;> iassumption)
    (hQ := fun s h c => h c)

variable {m ρ}

/-- A final memory read at an unscoped buffer. -/
theorem read_at {r : PUnit × MemSt nD τ sig (Elt F)} {c : Dev nD}
    (h : ∀ b ∈ Pipeline.ucRefs τ sig, r.2.mem (((c : Thread nD τ)).1, b) = Wn m ρ 13 c b) (b : Ref sig .tc)
    (hb : ¬ (Proc.devRef .tc b : DevRef τ sig).isScoped) : r.2.mem ((c.tc : Thread nD τ).loc b) = Wn m ρ 13 c (Proc.devRef .tc b) :=
  h _ (Finset.mem_filter.mpr ⟨StableHlo.devRef_mem_tcRefs b, hb⟩)

/-- A buffer no item writes ends at its launch contents. -/
theorem kept {r : PUnit × MemSt nD τ sig (Elt F)} {c : Dev nD}
    (h : ∀ b ∈ Pipeline.ucRefs τ sig, r.2.mem (((c : Thread nD τ)).1, b) = Wn m ρ 13 c b) (b : Ref sig .tc)
    (hb : ¬ (Proc.devRef .tc b : DevRef τ sig).isScoped) (hw : ∀ k < 13, 0 ≤ k → b ∉ written k) :
    r.2.mem ((c.tc : Thread nD τ).loc b) = m ((c.tc : Thread nD τ).loc b) :=
  (read_at h b hb).trans (Wn_same m ρ c b 0 13 hw (by decide))

/-- The frame: the ten argument arrays end as launched. -/
theorem frame : Cert.frame_KernelIdeal := fun m ρ _ => (θ_run defs _ _).mono (fun r h c =>
  ⟨kept (h c) main_arg0 (by decide) (by decide), kept (h c) main_arg1 (by decide) (by decide),
   kept (h c) main_arg2 (by decide) (by decide), kept (h c) main_arg3 (by decide) (by decide),
   kept (h c) main_arg4 (by decide) (by decide), kept (h c) main_arg5 (by decide) (by decide),
   kept (h c) main_arg6 (by decide) (by decide), kept (h c) main_arg7 (by decide) (by decide),
   kept (h c) main_arg8 (by decide) (by decide), kept (h c) main_arg9 (by decide) (by decide)⟩) (run_all m ρ)

end Cert.KernelIdeal.Hand

end
-- ==== Proof.KI.Stages.lean ====
import proofs.«422210_j51213190037704_1_alg».proof.Proof.KI.Fold
import proofs.«422210_j51213190037704_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.StableHlo
open Cert.ReferenceIdeal.Read

section Layout
variable {α : Type}
open Idealize.ShloMosaic.ValueIdx

-- Both read the vector at the coordinate on axis `p`; the other axis has extent one, so its coordinate is zero.
theorem shapeCast_vec_eq_broadcastInDim {a : ℕ} {d : Fin 2 → ℕ} (p : Fin 2) (hp : d p = a) (hq : ∀ q, q ≠ p → d q = 1)
    (x : (⟨1, ![a]⟩ : Shape).Idx → α) (h : (⟨1, ![a]⟩ : Shape).ShapeCasts ⟨2, d⟩)
    (hd : (⟨1, ![a]⟩ : Shape).BroadcastsInDim ⟨2, d⟩ ![p]) :
    shapeCast ⟨2, d⟩ x h = broadcastInDim ⟨2, d⟩ ![p] hd x := by
  funext i
  have hi : (i p).val < a := hp ▸ (i p).isLt
  have h0 : (i 0).val < d 0 := (i 0).isLt
  have h1 : (i 1).val < d 1 := (i 1).isLt
  refine (shapeCast_apply x h i (ix1 ⟨(i p).val, hi⟩) ?_).trans (broadcastInDim_apply ![p] hd x i (ix1 ⟨(i p).val, hi⟩) fun ax => ?_).symm
  · rw [Shape.rowMajor_val_two, Shape.rowMajor_val_one]
    show (i p).val = (i 0).val * d 1 + (i 1).val
    rcases (by decide : ∀ q : Fin 2, q = 0 ∨ q = 1) p with rfl | rfl
    · rw [hq 1 (by decide)] at h1 ⊢; omega
    · rw [hq 0 (by decide)] at h0
      rw [show (i 0).val = 0 by omega, Nat.zero_mul, Nat.zero_add]
  · match ax with
    | ⟨0, _⟩ =>
      show (i p).val = if a = 1 then 0 else (i p).val
      split
      · omega
      · rfl

end Layout

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

section Recomputed
variable {F : FTy → Type} [FloatOps F]

theorem val_main_v77_eq : val_main_v77 (F := F) = val_main_v27 := rfl
theorem val_main_v115_eq : val_main_v115 (F := F) = val_main_v27 := rfl
theorem val_main_v91_eq : val_main_v91 (F := F) = val_main_v41 := rfl
theorem val_main_v129_eq : val_main_v129 (F := F) = val_main_v41 := rfl

end Recomputed

theorem W1_v1 : Wn m ρ 1 c (Proc.devRef .tc main_v1) = val_main_v1 (F := Ideal) (arg m c main_arg1) := by
  show StableHlo.after (hostOps0 (F := Ideal)) _ (Proc.devRef .tc main_v1) = _
  after_results_simp
  rfl

theorem W1_v3 : Wn m ρ 1 c (Proc.devRef .tc main_v3) = val_main_v3 (F := Ideal) (arg m c main_arg1) := by
  show StableHlo.after (hostOps0 (F := Ideal)) _ (Proc.devRef .tc main_v3) = _
  after_results_simp
  rfl

theorem W1_v12 : Wn m ρ 1 c (Proc.devRef .tc main_v12) = val_main_v41 (F := Ideal) (arg m c main_arg1) := by
  show StableHlo.after (hostOps0 (F := Ideal)) _ (Proc.devRef .tc main_v12) = _
  after_results_simp
  unfold val_main_v41
  refine Eq.trans ?_ (shapeCast_vec_eq_broadcastInDim 0 rfl (by decide) (val_main_v40 (F := Ideal) (arg m c main_arg1)) shapeCasts_S100000_S100000x1
    Cert.ReferenceIdeal.Facts₀.bcast_S100000_S100000x1_0)
  rfl

theorem W1_v28 : Wn m ρ 1 c (Proc.devRef .tc main_v28) = val_main_v27 (F := Ideal) (arg m c main_arg1) := by
  show StableHlo.after (hostOps0 (F := Ideal)) _ (Proc.devRef .tc main_v28) = _
  after_results_simp
  unfold val_main_v27
  refine Eq.trans ?_ (shapeCast_vec_eq_broadcastInDim 0 rfl (by decide) (val_main_v26 (F := Ideal) (arg m c main_arg1)) shapeCasts_S1600000_S1600000x1
    Cert.ReferenceIdeal.Facts₀.bcast_S1600000_S1600000x1_0)
  rfl

theorem carried {b : Ref sig .tc} {x : (Proc.devRef (τ := τ) .tc b).ty.Contents (Elt Ideal)} (h1 : Wn m ρ 1 c (Proc.devRef .tc b) = x) (j : ℕ)
    (h : ∀ k < j, 1 ≤ k → b ∉ written k) (hj : 1 ≤ j := by decide) : Wn m ρ j c (Proc.devRef .tc b) = x :=
  (Wn_same m ρ c b 1 j h hj).trans h1

theorem arg_at (b : Ref sig .tc) (j : ℕ) (h : ∀ k < j, 0 ≤ k → b ∉ written k) : Wn m ρ j c (Proc.devRef .tc b) = arg m c b :=
  Wn_same m ρ c b 0 j h j.zero_le

theorem W3_v41 (h : Wn m ρ 2 c (Proc.devRef .tc main_v29) = val_main_v11 (F := Ideal) (arg m c main_arg0) (arg m c main_arg3)) :
    Wn m ρ 3 c (Proc.devRef .tc main_v41) = val_main_v39 (F := Ideal) (arg m c main_arg0) (arg m c main_arg1) (arg m c main_arg3) := by
  show StableHlo.after (hostOps1 (F := Ideal)) _ (Proc.devRef .tc main_v41) = _
  after_results_simp
  rw [carried m ρ c (W1_v1 m ρ c) 2 (by decide), carried m ρ c (W1_v3 m ρ c) 2 (by decide), carried m ρ c (W1_v28 m ρ c) 2 (by decide), h]
  rfl

theorem W3_v42 : Wn m ρ 3 c (Proc.devRef .tc main_v42) = val_main_v45 (F := Ideal) (arg m c main_arg4) := by
  show StableHlo.after (hostOps1 (F := Ideal)) _ (Proc.devRef .tc main_v42) = _
  after_results_simp
  rw [arg_at m ρ c main_arg4 2 (by decide)]
  unfold val_main_v45
  refine Eq.trans ?_ (shapeCast_vec_eq_broadcastInDim 1 rfl (by decide) (arg m c main_arg4) shapeCasts_S64_S1x64 Cert.ReferenceIdeal.Facts₀.bcast_S64_S1x64_1)
  rfl

theorem W5_v44 : Wn m ρ 5 c (Proc.devRef .tc main_v44) = val_main_v51 (F := Ideal) (arg m c main_arg2) := by
  show StableHlo.after (hostOps2 (F := Ideal)) _ (Proc.devRef .tc main_v44) = _
  after_results_simp
  rw [arg_at m ρ c main_arg2 4 (by decide)]
  unfold val_main_v51
  refine Eq.trans ?_ (shapeCast_vec_eq_broadcastInDim 0 rfl (by decide) (arg m c main_arg2) shapeCasts_S100000_S100000x1 Cert.ReferenceIdeal.Facts₀.bcast_S100000_S100000x1_0)
  rfl

theorem W8_v58 (h : Wn m ρ 7 c (Proc.devRef .tc main_v46) = val_main_v61 (F := Ideal) (arg m c main_arg0) (arg m c main_arg1) (arg m c main_arg3) (arg m c main_arg4) (arg m c main_arg5)) :
    Wn m ρ 8 c (Proc.devRef .tc main_v58) = val_main_v89 (F := Ideal) (arg m c main_arg0) (arg m c main_arg1) (arg m c main_arg3) (arg m c main_arg4) (arg m c main_arg5) := by
  show StableHlo.after (hostOps4 (F := Ideal)) _ (Proc.devRef .tc main_v58) = _
  after_results_simp
  rw [carried m ρ c (W1_v1 m ρ c) 7 (by decide), carried m ρ c (W1_v3 m ρ c) 7 (by decide), carried m ρ c (W1_v28 m ρ c) 7 (by decide), h, ← val_main_v77_eq]
  rfl

theorem W8_v59 : Wn m ρ 8 c (Proc.devRef .tc main_v59) = val_main_v95 (F := Ideal) (arg m c main_arg6) := by
  show StableHlo.after (hostOps4 (F := Ideal)) _ (Proc.devRef .tc main_v59) = _
  after_results_simp
  rw [arg_at m ρ c main_arg6 7 (by decide)]
  unfold val_main_v95
  refine Eq.trans ?_ (shapeCast_vec_eq_broadcastInDim 1 rfl (by decide) (arg m c main_arg6) shapeCasts_S32_S1x32 Cert.ReferenceIdeal.Facts₀.bcast_S32_S1x32_1)
  rfl

theorem W11_v73 (h : Wn m ρ 10 c (Proc.devRef .tc main_v61) = val_main_v99 (F := Ideal) (arg m c main_arg0) (arg m c main_arg1) (arg m c main_arg3) (arg m c main_arg4) (arg m c main_arg7)) :
    Wn m ρ 11 c (Proc.devRef .tc main_v73) = val_main_v127 (F := Ideal) (arg m c main_arg0) (arg m c main_arg1) (arg m c main_arg3) (arg m c main_arg4) (arg m c main_arg7) := by
  show StableHlo.after (hostOps6 (F := Ideal)) _ (Proc.devRef .tc main_v73) = _
  after_results_simp
  rw [carried m ρ c (W1_v1 m ρ c) 10 (by decide), carried m ρ c (W1_v3 m ρ c) 10 (by decide), carried m ρ c (W1_v28 m ρ c) 10 (by decide), h, ← val_main_v115_eq]
  rfl

theorem W11_v74 : Wn m ρ 11 c (Proc.devRef .tc main_v74) = val_main_v133 (F := Ideal) (arg m c main_arg8) := by
  show StableHlo.after (hostOps6 (F := Ideal)) _ (Proc.devRef .tc main_v74) = _
  after_results_simp
  rw [arg_at m ρ c main_arg8 10 (by decide)]
  unfold val_main_v133
  refine Eq.trans ?_ (shapeCast_vec_eq_broadcastInDim 1 rfl (by decide) (arg m c main_arg8) shapeCasts_S32_S1x32 Cert.ReferenceIdeal.Facts₀.bcast_S32_S1x32_1)
  rfl

end Cert.KernelIdeal.Hand

end
-- ==== Proof.LibDense.lean ====
import Idealize.ShloMosaic.Lib.StackMember
import Idealize.ShloMosaic.Lib.Pipeline.Value
import Idealize.ShloMosaic.PureOps.Ideal.Laws

noncomputable section

namespace Cert.LibDense

open Idealize.ShloMosaic Idealize.ShloMosaic.ValueIdx

theorem zeros2 : (![0, 0] : Fin 2 → ℕ) = fun _ => 0 := funext fun a => by fin_cases a <;> rfl

/-- With a zero accumulator both products are the bare sum over the contraction index. -/
theorem matmul_zero {sl sr so : Shape} {φ₁ φ₂ : FTy} (d : DotDims sl sr so) (prec : Option ContractPrecision)
    (A : FVec Ideal sl φ₁) (B : FVec Ideal sr φ₂) :
    FloatOps.matmul d prec A B (constant so .f32 0x00000000#32) = Host.dotGeneral d prec A B :=
  funext fun j => (Ideal.matmul_constant_zero_apply d prec A B j).trans (Ideal.dotGeneral_apply d prec _ A B j).symm

/-- A row of a product needs only that row of the left factor: rows shifted by one offset on both sides (`e₀`, `e₂`), the right factor whole (`e₁`). -/
theorem matmul_rows {M m k n : ℕ} {φ₁ φ₂ : FTy} (prec : Option ContractPrecision)
    (X : FVec Ideal ⟨2, ![M, k]⟩ φ₁) (W : FVec Ideal ⟨2, ![k, n]⟩ φ₂)
    {e₀ : (⟨2, ![m, k]⟩ : Shape).Idx → (⟨2, ![M, k]⟩ : Shape).Idx} {e₁ : (⟨2, ![k, n]⟩ : Shape).Idx → (⟨2, ![k, n]⟩ : Shape).Idx}
    {e₂ : (⟨2, ![m, n]⟩ : Shape).Idx → (⟨2, ![M, n]⟩ : Shape).Idx} {i₀ s₀ i₁ s₁ i₂ s₂ : Fin 2 → ℕ}
    (h₀ : ∀ y a, (e₀ y a : ℕ) = i₀ a * s₀ a + y a) (h₁ : ∀ y a, (e₁ y a : ℕ) = i₁ a * s₁ a + y a)
    (h₂ : ∀ y a, (e₂ y a : ℕ) = i₂ a * s₂ a + y a)
    (hi : i₀ 0 * s₀ 0 = i₂ 0 * s₂ 0 ∧ i₀ 1 = 0 ∧ i₁ 0 = 0 ∧ i₁ 1 = 0 ∧ i₂ 1 = 0) :
    FloatOps.matmul (DotDims.plain m k n) prec (fun y => X (e₀ y)) (fun y => W (e₁ y)) (constant _ .f32 0x00000000#32)
      = fun j => Host.dotGeneral (DotDims.plain M k n) prec X W (e₂ j) := by
  obtain ⟨h02, h01, h10, h11, h21⟩ := hi
  rw [matmul_zero]
  funext j
  obtain ⟨a, b, rfl⟩ : ∃ (a : Fin m) (b : Fin n), j = ix2 a b := ⟨j 0, j 1, eq_ix2 j⟩
  have h2 := h₂ (ix2 a b)
  generalize e₂ (ix2 a b) = i at h2 ⊢
  obtain ⟨a', b', rfl⟩ : ∃ (a' : Fin M) (b' : Fin n), i = ix2 a' b' := ⟨i 0, i 1, eq_ix2 i⟩
  have r2 : (a' : ℕ) = i₂ 0 * s₂ 0 + a := h2 0
  have c2 : (b' : ℕ) = i₂ 1 * s₂ 1 + b := h2 1
  rw [StackMember.dotGeneral_plain_apply, StackMember.dotGeneral_plain_apply]
  refine Finset.sum_congr rfl fun c _ => ?_
  congr 2 <;> refine Shape.idx_ext₂ ?_ ?_
  · exact (h₀ (ix2 a c) 0).trans (by rw [h02]; exact r2.symm)
  · exact (h₀ (ix2 a c) 1).trans (by rw [h01, Nat.zero_mul, Nat.zero_add]; rfl)
  · exact (h₁ (ix2 c b) 0).trans (by rw [h10, Nat.zero_mul, Nat.zero_add]; rfl)
  · exact (h₁ (ix2 c b) 1).trans (by rw [h11, Nat.zero_mul, Nat.zero_add, c2, h21, Nat.zero_mul, Nat.zero_add]; rfl)

/-- Row `x 0` lies in the row block numbered by its quotient, and a column below the width in column block 0. -/
theorem mem_rows (idx sz x : Fin 2 → ℕ) (h₀ : idx 0 = x 0 / sz 0) (h₁ : idx 1 = 0) (p₀ : 0 < sz 0) (p₁ : x 1 < sz 1) :
    ∀ a, idx a * sz a ≤ x a ∧ x a < idx a * sz a + sz a :=
  Fin.forall_fin_two.mpr ⟨by rw [h₀]; exact ⟨Nat.div_mul_le_self _ _, Nat.lt_div_mul_add p₀⟩,
    by rw [h₁, Nat.zero_mul, Nat.zero_add]; exact ⟨Nat.zero_le _, p₁⟩⟩

end Cert.LibDense

end
-- ==== Proof.KI.Val0.lean ====
import proofs.«422210_j51213190037704_1_alg».proof.Proof.KI.R0
import proofs.«422210_j51213190037704_1_alg».proof.Proof.Gen.ReferenceIdeal
import proofs.«422210_j51213190037704_1_alg».proof.Proof.LibDense

noncomputable section

namespace Cert.KernelIdeal.Hand

open Cert.KernelIdeal Cert.KernelIdeal.Gen Cert.LibDense
open Idealize.ShloMosaic Idealize.ShloMosaic.TcCoe Idealize.SL.Sem

private theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Each point writes back its rows of the product, and the row blocks fill the array. -/
theorem val0 (c : Dev nD) :
    (dat0 (F := Ideal) V c).arrAt 2 cfg0.N
      = Host.dotGeneral (F := Ideal) (φ₁ := .f32) (φ₂ := .f32) Cert.ReferenceIdeal.dot_S100000x7_S7x64_S100000x64_1_0_0_1_n_n none (V c main_arg0) (V c main_arg3) := by
  refine (dat0 V c).arrAt_eq_of_cover 2 _ (fun t _ => ?_) fun i => ?_
  · obtain ⟨e0, e1, e2, e3, e4, e5⟩ := idx0 t
    unfold Pipeline.Dat.flushed
    rw [after0_2]
    unfold out0_2 k0_pay1
    rw [View.canon_unit_zero zeros2, View.ld_unit_zero zeros2, View.ld_unit_zero zeros2]
    exact matmul_rows none (V c main_arg0) (V c main_arg3) (win0_0.rect_emb_val t) (win0_1.rect_emb_val t) (win0_2.rect_emb_val t)
      ⟨by rw [e0, e4]; rfl, e1, e2, e3, e5⟩
  · obtain ⟨t, ht⟩ : ∃ t : Fin cfg0.N, t.val = (i 0).val / 20000 := ⟨⟨_, Nat.div_lt_of_lt_mul (i 0).isLt⟩, rfl⟩
    obtain ⟨-, -, -, -, e4, e5⟩ := idx0 t
    refine ⟨t, flush0_2 t, ?_⟩
    show i ∈ ((View.whole main_v29).slice (win0_2.rect t)).set
    rw [View.set_slice_whole, Rect.mem_set_unit]
    exact mem_rows (win0_2.index t) win0_2.size (fun a => (i a).val) (e4.trans ht) e5 (Nat.succ_pos _) (i 1).isLt

end Cert.KernelIdeal.Hand

end
-- ==== Proof.LibColumn.lean ====
import Idealize.ShloMosaic.Lib.Pipeline.Value
import Idealize.ShloMosaic.Lib.ValueIdx
import Idealize.ShloMosaic.Lib.ValueLayout
import Idealize.ShloMosaic.Lib.KernelVsHost

noncomputable section

namespace Cert.LibColumn

open Idealize.ShloMosaic Idealize.ShloMosaic.ValueIdx

theorem zero2 : (![0, 0] : Fin 2 → ℕ) = fun _ => 0 := funext fun a => by fin_cases a <;> rfl

section Layout
variable {α : Type} {a b : ℕ}

-- On the row axis the operand's extent is the result's; on the column axis it is one.
theorem broadcastTo_a1_ab_apply (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

theorem broadcastInDim_a1_ab_apply (h : (⟨2, ![a, 1]⟩ : Shape).BroadcastsInDim ⟨2, ![a, b]⟩ ![0, 1])
    (v : (⟨2, ![a, 1]⟩ : Shape).Idx → α) (r : Fin a) (c : Fin b) :
    broadcastInDim ⟨2, ![a, b]⟩ ![0, 1] h v (ix2 r c) = v (ix2 r (0 : Fin 1)) := by
  refine broadcastInDim_apply ![0, 1] h v (ix2 r c) (ix2 r (0 : Fin 1)) fun ax => ?_
  match ax with
  | ⟨0, _⟩ =>
    show r.val = if a = 1 then 0 else r.val
    split
    · have := r.isLt; omega
    · rfl
  | ⟨1, _⟩ => rfl

end Layout

section RowTiles
variable {A a b : ℕ} {i : Fin 2 → ℕ} {inb : ∀ x, i x * ![a, b] x + ![a, b] x ≤ (⟨2, ![A, b]⟩ : Shape).size x}

-- Row block `t` starts at row `t * a` and at column 0.
theorem rowTile_emb {t : ℕ} (h0 : i 0 = t) (h1 : i 1 = 0) (r : Fin a) (k : Fin b) (R : Fin A) (hR : R.val = t * a + r.val) :
    (Rect.unit (s := ⟨2, ![A, b]⟩) (fun x => i x * ![a, b] x) ![a, b] inb).emb (ix2 r k) = ix2 R k := by
  funext x; apply Fin.ext
  match x with
  | ⟨0, _⟩ => show i 0 * a + 1 * r.val = R.val; rw [hR, h0]; omega
  | ⟨1, _⟩ => show i 1 * b + 1 * k.val = k.val; rw [h1]; omega

end RowTiles

/-- The block indices of five operands at tile `t`: operands 0, 1, 2 and 4 at row block `t`, operand 3 at row block 0; all at column block 0. -/
abbrev RowTiles (i0 i1 i2 i3 i4 : Fin 2 → ℕ) (t : ℕ) : Prop :=
  i0 0 = t ∧ i0 1 = 0 ∧ i1 0 = t ∧ i1 1 = 0 ∧ i2 0 = t ∧ i2 1 = 0 ∧ i3 0 = 0 ∧ i3 1 = 0 ∧ i4 0 = t ∧ i4 1 = 0

section Combine
variable {F : FTy → Type} [FloatOps F] {A a b : ℕ} {i0 i1 i2 i3 i4 : Fin 2 → ℕ}
  {n0 : ∀ x, i0 x * ![a, b] x + ![a, b] x ≤ (⟨2, ![A, b]⟩ : Shape).size x}
  {n1 : ∀ x, i1 x * ![a, b] x + ![a, b] x ≤ (⟨2, ![A, b]⟩ : Shape).size x}
  {n2 : ∀ x, i2 x * ![a, 1] x + ![a, 1] x ≤ (⟨2, ![A, 1]⟩ : Shape).size x}
  {n3 : ∀ x, i3 x * ![1, b] x + ![1, b] x ≤ (⟨2, ![1, b]⟩ : Shape).size x}
  {n4 : ∀ x, i4 x * ![a, b] x + ![a, b] x ≤ (⟨2, ![A, b]⟩ : Shape).size x}

-- Row `R` lies in row block `R / a`.
theorem mem_rowTile (ha : 0 < a) (j : (⟨2, ![A, b]⟩ : Shape).Idx) (h : RowTiles i0 i1 i2 i3 i4 ((j 0).val / a)) :
    j ∈ (Rect.unit (s := ⟨2, ![A, b]⟩) (fun x => i4 x * ![a, b] x) ![a, b] n4).set := by
  obtain ⟨-, -, -, -, -, -, -, -, p4, q4⟩ := h
  rw [Rect.mem_set_unit]
  intro x
  match x with
  | ⟨0, _⟩ =>
    show i4 0 * a ≤ (j 0).val ∧ (j 0).val < i4 0 * a + a
    rw [p4]; exact ⟨Nat.div_mul_le_self _ _, Nat.lt_div_mul_add ha⟩
  | ⟨1, _⟩ =>
    show i4 1 * b ≤ (j 1).val ∧ (j 1).val < i4 1 * b + b
    have : (j 1).val < b := (j 1).isLt
    rw [q4]; omega

-- Operands at one row block are read at the same entries, so an entrywise function of them is read there too.
theorem map₃_rowTile {α β γ δ : Type} {m2 : ∀ x, i2 x * ![a, b] x + ![a, b] x ≤ (⟨2, ![A, b]⟩ : Shape).size x}
    (f : α → β → γ → δ) (a0 : (⟨2, ![A, b]⟩ : Shape).Idx → α) (a1 : (⟨2, ![A, b]⟩ : Shape).Idx → β)
    (a2 : (⟨2, ![A, b]⟩ : Shape).Idx → γ) {t : ℕ} (h : RowTiles i0 i1 i2 i3 i4 t) :
    (fun y => f (a0 ((Rect.unit (s := ⟨2, ![A, b]⟩) (fun x => i0 x * ![a, b] x) ![a, b] n0).emb y))
        (a1 ((Rect.unit (s := ⟨2, ![A, b]⟩) (fun x => i1 x * ![a, b] x) ![a, b] n1).emb y))
        (a2 ((Rect.unit (s := ⟨2, ![A, b]⟩) (fun x => i2 x * ![a, b] x) ![a, b] m2).emb y)))
      = fun j => (fun i => f (a0 i) (a1 i) (a2 i)) ((Rect.unit (s := ⟨2, ![A, b]⟩) (fun x => i4 x * ![a, b] x) ![a, b] n4).emb j) := by
  obtain ⟨p0, q0, p1, q1, p2, q2, -, -, p4, q4⟩ := h
  have e (i : Fin 2 → ℕ) (h0 : i 0 = t) (h1 : i 1 = 0) : i = i4 :=
    funext fun x => match x with | ⟨0, _⟩ => h0.trans p4.symm | ⟨1, _⟩ => h1.trans q4.symm
  obtain rfl := e i0 p0 q0
  obtain rfl := e i1 p1 q1
  obtain rfl := e i2 p2 q2
  rfl

-- Both sides are entrywise; at `(r, k)` of row block `t` each operand is read at row `t * a + r`, the column operand at column 0, the row operand at row 0.
theorem combine_rowTile (a0 a1 : FVec F ⟨2, ![A, b]⟩ .f32) (a2 : FVec F ⟨2, ![A, 1]⟩ .f32) (a3 : FVec F ⟨2, ![1, b]⟩ .f32)
    {t : ℕ} (h : RowTiles i0 i1 i2 i3 i4 t)
    {s0 s1 : (⟨2, ![a, b]⟩ : Shape).ShapeCasts ⟨2, ![a, b]⟩} {s2 : (⟨2, ![a, 1]⟩ : Shape).ShapeCasts ⟨2, ![a, 1]⟩}
    {s3 : (⟨2, ![1, b]⟩ : Shape).ShapeCasts ⟨2, ![1, b]⟩}
    {c2 : (⟨2, ![a, 1]⟩ : Shape).Broadcasts ⟨2, ![a, b]⟩} {c3 : (⟨2, ![1, b]⟩ : Shape).Broadcasts ⟨2, ![a, b]⟩}
    {d2 : (⟨2, ![A, 1]⟩ : Shape).BroadcastsInDim ⟨2, ![A, b]⟩ ![0, 1]}
    {d3 : (⟨2, ![1, b]⟩ : Shape).BroadcastsInDim ⟨2, ![A, b]⟩ ![0, 1]}
    {dz : (⟨0, ![]⟩ : Shape).BroadcastsInDim ⟨2, ![A, b]⟩ ![]} :
    maximumf (addf (addf (shapeCast ⟨2, ![a, b]⟩ (fun y => a0 ((Rect.unit (s := ⟨2, ![A, b]⟩) (fun x => i0 x * ![a, b] x) ![a, b] n0).emb y)) s0)
        (mulf (shapeCast ⟨2, ![a, b]⟩ (fun y => a1 ((Rect.unit (s := ⟨2, ![A, b]⟩) (fun x => i1 x * ![a, b] x) ![a, b] n1).emb y)) s1)
          (broadcastTo ⟨2, ![a, b]⟩ (shapeCast ⟨2, ![a, 1]⟩ (fun y => a2 ((Rect.unit (s := ⟨2, ![A, 1]⟩) (fun x => i2 x * ![a, 1] x) ![a, 1] n2).emb y)) s2) c2)))
        (broadcastTo ⟨2, ![a, b]⟩ (shapeCast ⟨2, ![1, b]⟩ (fun y => a3 ((Rect.unit (s := ⟨2, ![1, b]⟩) (fun x => i3 x * ![1, b] x) ![1, b] n3).emb y)) s3) c3))
        (broadcast ⟨2, ![a, b]⟩ (Scalar.ofBits .f32 0x00000000#32))
      = fun j => maximumf (addf (addf a0 (mulf a1 (broadcastInDim ⟨2, ![A, b]⟩ ![0, 1] d2 a2))) (broadcastInDim ⟨2, ![A, b]⟩ ![0, 1] d3 a3))
          (broadcastInDim ⟨2, ![A, b]⟩ ![] dz (constant ⟨0, ![]⟩ .f32 0x00000000#32))
          ((Rect.unit (s := ⟨2, ![A, b]⟩) (fun x => i4 x * ![a, b] x) ![a, b] n4).emb j) := by
  obtain ⟨p0, q0, p1, q1, p2, q2, p3, q3, p4, q4⟩ := h
  funext j
  obtain ⟨r, k, rfl⟩ : ∃ (r : Fin a) (k : Fin b), j = ix2 r k := ⟨j 0, j 1, eq_ix2 j⟩
  have hR : (((Rect.unit (s := ⟨2, ![A, b]⟩) (fun x => i4 x * ![a, b] x) ![a, b] n4).emb (ix2 r k)) 0).val = t * a + r.val := by
    show i4 0 * a + 1 * r.val = _; rw [p4]; omega
  show _ = maximumf _ _ _
  rw [rowTile_emb (inb := n4) p4 q4 r k _ hR]
  exact congrArg₂ FloatOps.maximumf (congrArg₂ FloatOps.addf (congrArg₂ FloatOps.addf
      ((congrFun (shapeCast_self _ s0) _).trans (congrArg a0 (rowTile_emb p0 q0 r k _ hR)))
      (congrArg₂ FloatOps.mulf ((congrFun (shapeCast_self _ s1) _).trans (congrArg a1 (rowTile_emb p1 q1 r k _ hR)))
        ((broadcastTo_a1_ab_apply _ c2 r k).trans ((congrFun (shapeCast_self _ s2) _).trans
          ((congrArg a2 (rowTile_emb p2 q2 r (0 : Fin 1) _ hR)).trans (broadcastInDim_a1_ab_apply d2 a2 _ k).symm)))))
      ((broadcastTo_1b_ab_apply _ c3 r k).trans ((congrFun (shapeCast_self _ s3) _).trans
        ((congrArg a3 (rowTile_emb p3 q3 (0 : Fin 1) k (0 : Fin 1) (by omega))).trans (broadcastInDim_oneRow_apply d3 a3 _ k).symm)))) rfl

end Combine

end Cert.LibColumn

end
-- ==== Proof.KI.Val1.lean ====
import proofs.«422210_j51213190037704_1_alg».proof.Proof.KI.R1
import proofs.«422210_j51213190037704_1_alg».proof.Proof.Gen.ReferenceIdeal
import proofs.«422210_j51213190037704_1_alg».proof.Proof.LibColumn

noncomputable section

namespace Cert.KernelIdeal.Hand

open Cert.KernelIdeal Cert.KernelIdeal.Gen Cert.LibColumn
open Idealize.ShloMosaic Idealize.ShloMosaic.TcCoe Idealize.SL.Sem

theorem idx1 : ∀ t : Fin cfg1.N, RowTiles (win1_0.index t) (win1_1.index t) (win1_2.index t) (win1_3.index t) (win1_4.index t) t.val :=
  (by decide +kernel : ∀ t : Fin grid1.N, _)

-- Tile `t` writes back row block `t` of the whole-array expression, and the five row blocks cover the array.
theorem val1 (V : (c : Dev nD) → (b : Ref sig .tc) → Buf (Elt Ideal) ((c : Thread nD τ).loc b)) (c : Dev nD) :
    (dat1 (F := Ideal) V c).arrAt 4 cfg1.N
      = (maximumf (F := Ideal) (addf (F := Ideal) (addf (F := Ideal) (V c main_v41) (mulf (F := Ideal) (V c main_v29)
            (broadcastInDim S100000x64 ![0, 1] Cert.ReferenceIdeal.Facts₀.bcast_S100000x1_S100000x64_0_1 (V c main_v12))))
          (broadcastInDim S100000x64 ![0, 1] Cert.ReferenceIdeal.Facts₀.bcast_S1x64_S100000x64_0_1 (V c main_v42)))
        (broadcastInDim S100000x64 ![] Cert.ReferenceIdeal.Facts₀.bcast_S_S100000x64 (constant (F := Ideal) S_ .f32 0x00000000#32))
          : FVec Ideal S100000x64 .f32) := by
  refine (dat1 (F := Ideal) V c).arrAt_eq_of_cover 4 _ (fun t _ => ?_) fun i => ?_
  · show (cfg1.win 4).cut (grid1.coords t) ((dat1 (F := Ideal) V c).after 4 t) = _
    rw [after1_4]
    unfold out1_4
    rw [View.canon_unit_zero zero2]
    simp only [View.ld_unit_zero (S := S20000x64) zero2, View.ld_unit_zero (S := S20000x1) zero2, View.ld_unit_zero (S := S1x64) zero2]
    exact combine_rowTile (F := Ideal) (A := 100000) (V c main_v41) (V c main_v29) (V c main_v12) (V c main_v42) (idx1 t)
  · have hi : (i 0).val < 100000 := (i 0).isLt
    let t : Fin cfg1.N := ⟨(i 0).val / 20000, lt_of_lt_of_eq (by omega) N_1.symm⟩
    refine ⟨t, flush1_4 t, ?_⟩
    show i ∈ ((View.whole main_v43).slice (win1_4.rect t)).set
    rw [View.set_slice_whole]
    exact mem_rowTile (by decide) i (idx1 t)

end Cert.KernelIdeal.Hand

end
-- ==== Proof.KI.Val3.lean ====
import proofs.«422210_j51213190037704_1_alg».proof.Proof.KI.R3
import proofs.«422210_j51213190037704_1_alg».proof.Proof.Gen.ReferenceIdeal
import proofs.«422210_j51213190037704_1_alg».proof.Proof.LibDense

noncomputable section

namespace Cert.KernelIdeal.Hand

open Cert.KernelIdeal Cert.KernelIdeal.Gen Cert.LibDense
open Idealize.ShloMosaic Idealize.ShloMosaic.TcCoe Idealize.SL.Sem

private theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- Each point writes back its rows of the product, and the row blocks fill the array. -/
theorem val3 (c : Dev nD) :
    (dat3 (F := Ideal) V c).arrAt 2 cfg3.N
      = Host.dotGeneral (F := Ideal) (φ₁ := .f32) (φ₂ := .f32) Cert.ReferenceIdeal.dot_S100000x64_S64x32_S100000x32_1_0_0_1_n_n none (V c main_v43) (V c main_arg5) := by
  refine (dat3 V c).arrAt_eq_of_cover 2 _ (fun t _ => ?_) fun i => ?_
  · obtain ⟨e0, e1, e2, e3, e4, e5⟩ := idx3 t
    unfold Pipeline.Dat.flushed
    rw [after3_2]
    unfold out3_2 k3_pay1
    rw [View.canon_unit_zero zeros2, shapeCast_self, View.ld_unit_zero zeros2, View.ld_unit_zero zeros2]
    exact matmul_rows none (V c main_v43) (V c main_arg5) (win3_0.rect_emb_val t) (win3_1.rect_emb_val t) (win3_2.rect_emb_val t)
      ⟨by rw [e0, e4]; rfl, e1, e2, e3, e5⟩
  · obtain ⟨t, ht⟩ : ∃ t : Fin cfg3.N, t.val = (i 0).val / 20000 := ⟨⟨_, Nat.div_lt_of_lt_mul (i 0).isLt⟩, rfl⟩
    obtain ⟨-, -, -, -, e4, e5⟩ := idx3 t
    refine ⟨t, flush3_2 t, ?_⟩
    show i ∈ ((View.whole main_v46).slice (win3_2.rect t)).set
    rw [View.set_slice_whole, Rect.mem_set_unit]
    exact mem_rows (win3_2.index t) win3_2.size (fun a => (i a).val) (e4.trans ht) e5 (Nat.succ_pos _) (i 1).isLt

end Cert.KernelIdeal.Hand

end
-- ==== Proof.KI.Val4.lean ====
import proofs.«422210_j51213190037704_1_alg».proof.Proof.KI.R4
import proofs.«422210_j51213190037704_1_alg».proof.Proof.Gen.ReferenceIdeal
import proofs.«422210_j51213190037704_1_alg».proof.Proof.LibColumn

noncomputable section

namespace Cert.KernelIdeal.Hand

open Cert.KernelIdeal Cert.KernelIdeal.Gen Cert.LibColumn
open Idealize.ShloMosaic Idealize.ShloMosaic.TcCoe Idealize.SL.Sem

theorem idx4 : ∀ t : Fin cfg4.N, RowTiles (win4_0.index t) (win4_1.index t) (win4_2.index t) (win4_3.index t) (win4_4.index t) t.val :=
  (by decide +kernel : ∀ t : Fin grid4.N, _)

variable (V : (c : Dev nD) → (b : Ref sig .tc) → Buf (Elt Ideal) ((c : Thread nD τ).loc b))

-- Tile `t` writes back row block `t` of the whole-array expression, and the five row blocks cover the array.
theorem val4 (c : Dev nD) :
    (dat4 (F := Ideal) V c).arrAt 4 cfg4.N
      = maximumf (addf (addf (V c main_v58) (mulf (V c main_v46) (broadcastInDim S100000x32 ![0, 1] Cert.ReferenceIdeal.Facts₀.bcast_S100000x1_S100000x32_0_1 (V c main_v12))))
          (broadcastInDim S100000x32 ![0, 1] Cert.ReferenceIdeal.Facts₀.bcast_S1x32_S100000x32_0_1 (V c main_v59)))
        (broadcastInDim S100000x32 ![] Cert.ReferenceIdeal.Facts₀.bcast_S_S100000x32 (constant (F := Ideal) S_ .f32 0x00000000#32)) := by
  refine (dat4 (F := Ideal) V c).arrAt_eq_of_cover 4 _ (fun t _ => ?_) fun i => ?_
  · show (cfg4.win 4).cut (grid4.coords t) ((dat4 (F := Ideal) V c).after 4 t) = _
    rw [after4_4]
    unfold out4_4
    rw [View.canon_unit_zero zero2]
    simp only [View.ld_unit_zero (S := S20000x32) zero2, View.ld_unit_zero (S := S20000x1) zero2, View.ld_unit_zero (S := S1x32) zero2]
    exact combine_rowTile (F := Ideal) (A := 100000) (V c main_v58) (V c main_v46) (V c main_v12) (V c main_v59) (idx4 t)
  · have hi : (i 0).val < 100000 := (i 0).isLt
    let t : Fin cfg4.N := ⟨(i 0).val / 20000, lt_of_lt_of_eq (by omega) N_4.symm⟩
    refine ⟨t, flush4_4 t, ?_⟩
    show i ∈ ((View.whole main_v60).slice (win4_4.rect t)).set
    rw [View.set_slice_whole]
    exact mem_rowTile (by decide) i (idx4 t)

end Cert.KernelIdeal.Hand

end
-- ==== Proof.KI.Val5.lean ====
import proofs.«422210_j51213190037704_1_alg».proof.Proof.KI.R5
import proofs.«422210_j51213190037704_1_alg».proof.Proof.Gen.ReferenceIdeal
import proofs.«422210_j51213190037704_1_alg».proof.Proof.LibDense

noncomputable section

namespace Cert.KernelIdeal.Hand

open Cert.KernelIdeal Cert.KernelIdeal.Gen Cert.LibDense
open Idealize.ShloMosaic Idealize.ShloMosaic.TcCoe Idealize.SL.Sem

private theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- Each point writes back its rows of the product, and the row blocks fill the array. -/
theorem val5 (c : Dev nD) :
    (dat5 (F := Ideal) V c).arrAt 2 cfg5.N
      = Host.dotGeneral (F := Ideal) (φ₁ := .f32) (φ₂ := .f32) Cert.ReferenceIdeal.dot_S100000x64_S64x32_S100000x32_1_0_0_1_n_n none (V c main_v43) (V c main_arg7) := by
  refine (dat5 V c).arrAt_eq_of_cover 2 _ (fun t _ => ?_) fun i => ?_
  · obtain ⟨e0, e1, e2, e3, e4, e5⟩ := idx5 t
    unfold Pipeline.Dat.flushed
    rw [after5_2]
    unfold out5_2 k5_pay1
    rw [View.canon_unit_zero zeros2, shapeCast_self, View.ld_unit_zero zeros2, View.ld_unit_zero zeros2]
    exact matmul_rows none (V c main_v43) (V c main_arg7) (win5_0.rect_emb_val t) (win5_1.rect_emb_val t) (win5_2.rect_emb_val t)
      ⟨by rw [e0, e4]; rfl, e1, e2, e3, e5⟩
  · obtain ⟨t, ht⟩ : ∃ t : Fin cfg5.N, t.val = (i 0).val / 20000 := ⟨⟨_, Nat.div_lt_of_lt_mul (i 0).isLt⟩, rfl⟩
    obtain ⟨-, -, -, -, e4, e5⟩ := idx5 t
    refine ⟨t, flush5_2 t, ?_⟩
    show i ∈ ((View.whole main_v61).slice (win5_2.rect t)).set
    rw [View.set_slice_whole, Rect.mem_set_unit]
    exact mem_rows (win5_2.index t) win5_2.size (fun a => (i a).val) (e4.trans ht) e5 (Nat.succ_pos _) (i 1).isLt

end Cert.KernelIdeal.Hand

end
-- ==== Proof.KI.Val6.lean ====
import proofs.«422210_j51213190037704_1_alg».proof.Proof.KI.R6
import proofs.«422210_j51213190037704_1_alg».proof.Proof.Gen.ReferenceIdeal
import proofs.«422210_j51213190037704_1_alg».proof.Proof.LibColumn

noncomputable section

namespace Cert.KernelIdeal.Hand

open Cert.KernelIdeal Cert.KernelIdeal.Gen Cert.LibColumn
open Idealize.ShloMosaic Idealize.ShloMosaic.TcCoe Idealize.SL.Sem

theorem idx6 : ∀ t : Fin cfg6.N, RowTiles (win6_0.index t) (win6_1.index t) (win6_2.index t) (win6_3.index t) (win6_4.index t) t.val :=
  (by decide +kernel : ∀ t : Fin grid6.N, _)

variable (V : (c : Dev nD) → (b : Ref sig .tc) → Buf (Elt Ideal) ((c : Thread nD τ).loc b))

-- Tile `t` writes back row block `t` of the whole-array expression, and the five row blocks cover the array.
theorem val6 (c : Dev nD) :
    (dat6 (F := Ideal) V c).arrAt 4 cfg6.N
      = maximumf (addf (addf (V c main_v73) (mulf (V c main_v61) (broadcastInDim S100000x32 ![0, 1] Cert.ReferenceIdeal.Facts₀.bcast_S100000x1_S100000x32_0_1 (V c main_v12))))
          (broadcastInDim S100000x32 ![0, 1] Cert.ReferenceIdeal.Facts₀.bcast_S1x32_S100000x32_0_1 (V c main_v74)))
        (broadcastInDim S100000x32 ![] Cert.ReferenceIdeal.Facts₀.bcast_S_S100000x32 (constant (F := Ideal) S_ .f32 0x00000000#32)) := by
  refine (dat6 (F := Ideal) V c).arrAt_eq_of_cover 4 _ (fun t _ => ?_) fun i => ?_
  · show (cfg6.win 4).cut (grid6.coords t) ((dat6 (F := Ideal) V c).after 4 t) = _
    rw [after6_4]
    unfold out6_4
    rw [View.canon_unit_zero zero2]
    simp only [View.ld_unit_zero (S := S20000x32) zero2, View.ld_unit_zero (S := S20000x1) zero2, View.ld_unit_zero (S := S1x32) zero2]
    exact combine_rowTile (F := Ideal) (A := 100000) (V c main_v73) (V c main_v61) (V c main_v12) (V c main_v74) (idx6 t)
  · have hi : (i 0).val < 100000 := (i 0).isLt
    let t : Fin cfg6.N := ⟨(i 0).val / 20000, lt_of_lt_of_eq (by omega) N_6.symm⟩
    refine ⟨t, flush6_4 t, ?_⟩
    show i ∈ ((View.whole main_v75).slice (win6_4.rect t)).set
    rw [View.set_slice_whole]
    exact mem_rowTile (by decide) i (idx6 t)

end Cert.KernelIdeal.Hand

end
-- ==== Proof.KI.Val7.lean ====
import proofs.«422210_j51213190037704_1_alg».proof.Proof.KI.R7
import proofs.«422210_j51213190037704_1_alg».proof.Proof.LibColumn

noncomputable section

namespace Cert.KernelIdeal.Hand

open Cert.KernelIdeal Cert.KernelIdeal.Gen Cert.LibColumn
open Idealize.ShloMosaic Idealize.ShloMosaic.TcCoe Idealize.SL.Sem

theorem idx7 : ∀ t : Fin cfg7.N, RowTiles (win7_0.index t) (win7_1.index t) (win7_2.index t) (fun _ => 0) (win7_3.index t) t.val :=
  (by decide +kernel : ∀ t : Fin grid7.N, _)

variable (V : (c : Dev nD) → (b : Ref sig .tc) → Buf (Elt Ideal) ((c : Thread nD τ).loc b))

-- Tile `t` writes back row block `t` of the whole-array expression, and the five row blocks cover the array.
theorem val7 (c : Dev nD) :
    (dat7 (F := Ideal) V c).arrAt 3 cfg7.N
      = addf (F := Ideal) (s := S100000x32) (φ := .f32) (mulf (V c main_arg9) (Host.exp (V c main_v75))) (V c main_v60) := by
  refine (dat7 (F := Ideal) V c).arrAt_eq_of_cover 3 _ (fun t _ => ?_) fun i => ?_
  · show (cfg7.win 3).cut (grid7.coords t) ((dat7 (F := Ideal) V c).after 3 t) = _
    rw [after7_3]
    unfold out7_3
    rw [View.canon_unit_zero zero2]
    simp only [View.ld_unit_zero (S := S20000x32) zero2]
    unfold k7_pay1
    simp only [shapeCast_self]
    exact map₃_rowTile (A := 100000) (fun x y z => FloatOps.addf (F := Ideal) (φ := .f32) (FloatOps.mulf x (FloatOps.hostUnary .exp z)) y)
      (V c main_arg9) (V c main_v60) (V c main_v75) (idx7 t)
  · have hi : (i 0).val < 100000 := (i 0).isLt
    let t : Fin cfg7.N := ⟨(i 0).val / 20000, lt_of_lt_of_eq (by omega) N_7.symm⟩
    refine ⟨t, flush7_3 t, ?_⟩
    show i ∈ ((View.whole main_v76).slice (win7_3.rect t)).set
    rw [View.set_slice_whole]
    exact mem_rowTile (by decide) i (idx7 t)

end Cert.KernelIdeal.Hand

end
-- ==== Proof.KI.PoolDefs.lean ====
import proofs.«422210_j51213190037704_1_alg».proof.Proof.Gen.KernelIdeal.Skeleton
import Idealize.ShloMosaic.Lib.ValueIdx

noncomputable section

namespace Cert.KernelIdeal.Hand

open Cert.KernelIdeal Cert.KernelIdeal.Gen
open Idealize.ShloMosaic Idealize.ShloMosaic.ValueIdx

variable {F : FTy → Type} [FloatOps F]

def tileRow (t : Fin 5) (r : Fin 20000) : Fin 100000 := ⟨20000 * t.val + r.val, by have := t.isLt; have := r.isLt; omega⟩

def xTile (X : Vec F S100000x7 .f32) (t : Fin 5) : Vec F S20000x7 .f32 :=
  fun y => X (ix2 (tileRow t ⟨(y 0).val, idx2_lt0 y⟩) ⟨(y 1).val, idx2_lt1 y⟩)

def bTile (B : Vec F S100000x1 .i32) (t : Fin 5) : Vec F S20000x1 .i32 :=
  fun y => B (ix2 (tileRow t ⟨(y 0).val, idx2_lt0 y⟩) ⟨(y 1).val, idx2_lt1 y⟩)

def poolAcc (X : Vec F S100000x7 .f32) (B : Vec F S100000x1 .i32) : (n : ℕ) → n < 5 → Vec F S64x7 .f32 × Vec F S64x1 .f32
  | 0, h => (k2_pay4 (bTile B ⟨0, h⟩) (k2_pay1 (F := F)) (xTile X ⟨0, h⟩), k2_pay5 (bTile B ⟨0, h⟩) (k2_pay2 (F := F)))
  | n + 1, h => (k2_pay4 (bTile B ⟨n + 1, h⟩) (poolAcc X B n (Nat.lt_of_succ_lt h)).1 (xTile X ⟨n + 1, h⟩),
      k2_pay5 (bTile B ⟨n + 1, h⟩) (poolAcc X B n (Nat.lt_of_succ_lt h)).2)

def poolOut (X : Vec F S100000x7 .f32) (B : Vec F S100000x1 .i32) : Vec F S64x7 .f32 :=
  k2_pay6 (poolAcc X B 4 (by decide)).1 (poolAcc X B 4 (by decide)).2

end Cert.KernelIdeal.Hand

end
-- ==== Proof.KI.Val2.lean ====
import proofs.«422210_j51213190037704_1_alg».proof.Proof.KI.R2
import proofs.«422210_j51213190037704_1_alg».proof.Proof.KI.PoolDefs
import proofs.«422210_j51213190037704_1_alg».proof.Proof.LibColumn
import Idealize.ShloMosaic.Lib.Tactic

noncomputable section

namespace Cert.KernelIdeal.Hand

open Cert.KernelIdeal Cert.KernelIdeal.Gen Cert.LibColumn
open Idealize.ShloMosaic Idealize.ShloMosaic.TcCoe Idealize.ShloMosaic.Tactic Idealize.ShloMosaic.ValueIdx
open Idealize.SL.Sem

variable {F : FTy → Type} [FloatOps F]

section Runs
variable (c : Dev nD) (i : grid2.Coords) (arg1 : Memref sig .tc .vmem S20000x7 .f32) (harg1 : arg1.IsWhole)
  (arg2 : Memref sig .tc .vmem S20000x1 .i32) (harg2 : arg2.IsWhole) (arg3 : Memref sig .tc .vmem S64x7 .f32) (harg3 : arg3.IsWhole)
  (arg4 : Memref sig .tc .vmem S64x7 .f32) (harg4 : arg4.IsWhole) (arg5 : Memref sig .tc .vmem S64x1 .f32) (harg5 : arg5.IsWhole)
  (x0 : Vec F S20000x7 .f32) (x1 : Vec F S20000x1 .i32) (xs0 : Vec F S64x7 .f32) (xs1 : Vec F S64x1 .f32)

theorem souts2_A_eq (hc0 : cond2_0 i) (hc1 : ¬cond2_1 i) :
    sout2_A_0 c i arg1 harg1 arg2 harg2 arg3 harg3 arg4 harg4 arg5 harg5 hc0 hc1 x0 x1 = k2_pay4 x1 (k2_pay1 (F := F)) x0 ∧ sout2_A_1 c i arg1 harg1 arg2 harg2 arg3 harg3 arg4 harg4 arg5 harg5 hc0 hc1 x0 x1 = k2_pay5 x1 (k2_pay2 (F := F)) := by
  unfold sout2_A_0 sout2_A_1
  rw [View.read_writes_eq_canon _ _ _ (scover2_A_0 c i arg1 harg1 arg2 harg2 arg3 harg3 arg4 harg4 arg5 harg5 hc0 hc1 x0 x1), View.read_writes_eq_canon _ _ _ (scover2_A_1 c i arg1 harg1 arg2 harg2 arg3 harg3 arg4 harg4 arg5 harg5 hc0 hc1 x0 x1)]
  unfold kernelRun2_A
  dsimp only
  sl_unfold_words
  rw [View.canon_cons_unit_zero (S := S64x7) zero2, View.readCov_unit_zero (S := S64x7) _ zero2,
    View.canon_cons_unit_zero (S := S64x1) zero2, View.readCov_unit_zero (S := S64x1) _ zero2]
  simp only [View.readAt_eq_ld, harg1.read_unread, harg2.read_unread, harg3.read_unread, harg4.read_unread, harg5.read_unread,
    View.ld_unit_zero (S := S20000x7) zero2, View.ld_unit_zero (S := S20000x1) zero2, View.ld_unit_zero (S := S64x7) zero2, View.ld_unit_zero (S := S64x1) zero2,
    View.readCov_unit_zero (S := S64x7) _ zero2, View.readCov_unit_zero (S := S64x1) _ zero2, and_self]

theorem souts2_B_eq (hc0 : ¬cond2_0 i) (hc1 : ¬cond2_1 i) :
    sout2_B_0 c i arg1 harg1 arg2 harg2 arg3 harg3 arg4 harg4 arg5 harg5 hc0 hc1 x0 x1 xs0 xs1 = k2_pay4 x1 xs0 x0 ∧ sout2_B_1 c i arg1 harg1 arg2 harg2 arg3 harg3 arg4 harg4 arg5 harg5 hc0 hc1 x0 x1 xs0 xs1 = k2_pay5 x1 xs1 := by
  unfold sout2_B_0 sout2_B_1
  rw [View.read_writes_eq_canon _ _ _ (scover2_B_0 c i arg1 harg1 arg2 harg2 arg3 harg3 arg4 harg4 arg5 harg5 hc0 hc1 x0 x1 xs0 xs1), View.read_writes_eq_canon _ _ _ (scover2_B_1 c i arg1 harg1 arg2 harg2 arg3 harg3 arg4 harg4 arg5 harg5 hc0 hc1 x0 x1 xs0 xs1)]
  unfold kernelRun2_B
  dsimp only
  sl_unfold_words
  rw [View.canon_unit_zero zero2, View.canon_unit_zero zero2]
  simp only [View.readAt_eq_ld, harg1.read_unread, harg2.read_unread, harg3.read_unread, harg4.read_unread, harg5.read_unread,
    View.ld_unit_zero (S := S20000x7) zero2, View.ld_unit_zero (S := S20000x1) zero2, View.ld_unit_zero (S := S64x7) zero2, View.ld_unit_zero (S := S64x1) zero2,
    View.readCov_unit_zero (S := S64x7) _ zero2, View.readCov_unit_zero (S := S64x1) _ zero2, and_self]

theorem souts2_C_eq (hc0 : ¬cond2_0 i) (hc1 : cond2_1 i) :
    out2_C_2 c i arg1 harg1 arg2 harg2 arg3 harg3 arg4 harg4 arg5 harg5 hc0 hc1 x0 x1 xs0 xs1 = k2_pay6 (k2_pay4 x1 xs0 x0) (k2_pay5 x1 xs1) ∧ sout2_C_0 c i arg1 harg1 arg2 harg2 arg3 harg3 arg4 harg4 arg5 harg5 hc0 hc1 x0 x1 xs0 xs1 = k2_pay4 x1 xs0 x0 ∧ sout2_C_1 c i arg1 harg1 arg2 harg2 arg3 harg3 arg4 harg4 arg5 harg5 hc0 hc1 x0 x1 xs0 xs1 = k2_pay5 x1 xs1 := by
  unfold out2_C_2 sout2_C_0 sout2_C_1
  rw [View.read_writes_eq_canon _ _ _ (cover2_C_2 c i arg1 harg1 arg2 harg2 arg3 harg3 arg4 harg4 arg5 harg5 hc0 hc1 x0 x1 xs0 xs1), View.read_writes_eq_canon _ _ _ (scover2_C_0 c i arg1 harg1 arg2 harg2 arg3 harg3 arg4 harg4 arg5 harg5 hc0 hc1 x0 x1 xs0 xs1), View.read_writes_eq_canon _ _ _ (scover2_C_1 c i arg1 harg1 arg2 harg2 arg3 harg3 arg4 harg4 arg5 harg5 hc0 hc1 x0 x1 xs0 xs1)]
  unfold kernelRun2_C
  dsimp only
  sl_unfold_words
  rw [View.canon_unit_zero zero2, View.canon_unit_zero zero2, View.canon_unit_zero zero2]
  simp only [View.readAt_eq_ld, harg1.read_unread, harg2.read_unread, harg3.read_unread, harg4.read_unread, harg5.read_unread,
    View.ld_unit_zero (S := S20000x7) zero2, View.ld_unit_zero (S := S20000x1) zero2, View.ld_unit_zero (S := S64x7) zero2, View.ld_unit_zero (S := S64x1) zero2,
    View.readCov_unit_zero (S := S64x7) _ zero2, View.readCov_unit_zero (S := S64x1) _ zero2, and_self]

end Runs

variable (V : (c : Dev nD) → (b : Ref sig .tc) → Buf (Elt F) ((c : Thread nD τ).loc b))

def tile5 (t : Fin cfg2.N) : Fin 5 := ⟨t.val, lt_of_lt_of_eq t.isLt N_2⟩

theorem idx2_in : ∀ t : Fin cfg2.N, (win2_0.index t 0 = t.val ∧ win2_0.index t 1 = 0) ∧ (win2_1.index t 0 = t.val ∧ win2_1.index t 1 = 0) :=
  (by decide +kernel : ∀ t : Fin grid2.N, _)

theorem iblk2_0_eq (c : Dev nD) (t : Fin cfg2.N) :
    (iblk2 V c 0 t : Vec F S20000x7 .f32) = xTile (V c main_arg0) (tile5 t) := by
  funext j
  obtain ⟨r, k, rfl⟩ : ∃ (r : Fin 20000) (k : Fin 7), j = ix2 r k := ⟨j 0, j 1, eq_ix2 j⟩
  exact congrArg (V c main_arg0) (rowTile_emb (idx2_in t).1.1 (idx2_in t).1.2 r k (tileRow (tile5 t) r) (by show 20000 * t.val + r.val = _; omega))

theorem iblk2_1_eq (c : Dev nD) (t : Fin cfg2.N) :
    (iblk2 V c 1 t : Vec F S20000x1 .i32) = bTile (V c main_v44) (tile5 t) := by
  funext j
  obtain ⟨r, k, rfl⟩ : ∃ (r : Fin 20000) (k : Fin 1), j = ix2 r k := ⟨j 0, j 1, eq_ix2 j⟩
  exact congrArg (V c main_v44) (rowTile_emb (idx2_in t).2.1 (idx2_in t).2.2 r k (tileRow (tile5 t) r) (by show 20000 * t.val + r.val = _; omega))

theorem outsAt2_eq (c : Dev nD) : ∀ (n : ℕ) (h : n < cfg2.N),
    (outsAt2 V c n h).2.1 = (poolAcc (V c main_arg0) (V c main_v44) n (lt_of_lt_of_eq h N_2)).1
      ∧ (outsAt2 V c n h).2.2 = (poolAcc (V c main_arg0) (V c main_v44) n (lt_of_lt_of_eq h N_2)).2
  | 0, h => by
    rw [outsAt2]; dsimp only
    simp only [souts2_A_eq, iblk2_0_eq, iblk2_1_eq]
    exact ⟨rfl, rfl⟩
  | n + 1, h => by
    obtain ⟨e0, e1⟩ := outsAt2_eq c n (Nat.lt_of_succ_lt h)
    rw [outsAt2]
    by_cases h1 : (n + 1) % 5 = 4
    · rw [dif_pos h1]; dsimp only
      simp only [souts2_C_eq, e0, e1, iblk2_0_eq, iblk2_1_eq]
      exact ⟨rfl, rfl⟩
    · rw [dif_neg h1]; dsimp only
      simp only [souts2_B_eq, e0, e1, iblk2_0_eq, iblk2_1_eq]
      exact ⟨rfl, rfl⟩

theorem outsAt2_out (c : Dev nD) (n : ℕ) (h : n < cfg2.N) (hn : n = 4) :
    (outsAt2 V c n h).1 = poolOut (V c main_arg0) (V c main_v44) := by
  subst hn
  obtain ⟨e0, e1⟩ := outsAt2_eq V c 3 (Nat.lt_of_succ_lt h)
  show (outsAt2 V c (3 + 1) h).1 = _
  rw [outsAt2, dif_pos (by decide)]; dsimp only
  simp only [souts2_C_eq, e0, e1, iblk2_0_eq, iblk2_1_eq]
  rfl

abbrev result2 (c : Dev nD) : Buf (Elt F) ((c : Thread nD τ).loc main_v45) := poolOut (V c main_arg0) (V c main_v44)

theorem origin2 : (fun a => win2_2.index t2_4 a * main_v45.ty.shape.size a) = fun _ => 0 :=
  funext fun a => by fin_cases a <;> decide

-- Only the last tile writes back, and its block is the whole array.
theorem val2_chain (c : Dev nD) : (dat2 V c).arrAt 2 cfg2.N = result2 V c :=
  (dat2 V c).arrAt_eq_of_cover 2 (result2 V c)
    (fun t hf => by
      obtain rfl : t = t2_4 := Fin.ext (show t.val = 4 by have := (flush2_2 t).mp hf; have := lt_of_lt_of_eq t.isLt N_2; omega)
      show (cfg2.win 2).cut (grid2.coords t2_4) ((dat2 V c).after 2 t2_4) = _
      rw [after2_2, outsAt2_out V c t2_4.val _ rfl]
      exact (Memref.read_access_unit_zero (Elt F) main_v45 origin2 (fun a => by rw [congrFun origin2 a]; simp) (result2 V c)).symm)
    fun i => ⟨t2_4, (flush2_2 t2_4).mpr rfl, by
      show i ∈ ((View.whole main_v45).slice (win2_2.rect t2_4)).set
      rw [View.set_slice_whole]
      exact View.mem_set_unit_zero origin2 _ i⟩

end Cert.KernelIdeal.Hand

end
-- ==== Proof.KI.PoolSpec.lean ====
import proofs.«422210_j51213190037704_1_alg».proof.Proof.Gen.KernelIdeal.Skeleton
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.ValueIdx

def nodeLabel (B : Vec Ideal S100000x1 .i32) (n : Fin 100000) : ℤ :=
  (B (ix2 n (0 : Fin 1)) : BitVec 32).toInt

def poolSum (X : Vec Ideal S100000x7 .f32) (B : Vec Ideal S100000x1 .i32) (g : Fin 64) (d : Fin 7) : EReal :=
  ∑ n : Fin 100000, if nodeLabel B n = (g.val : ℤ) then (X (ix2 n d) : EReal) else 0

def poolCount (B : Vec Ideal S100000x1 .i32) (g : Fin 64) : EReal :=
  ∑ n : Fin 100000, if nodeLabel B n = (g.val : ℤ) then (1 : EReal) else 0

def poolSpec (X : Vec Ideal S100000x7 .f32) (B : Vec Ideal S100000x1 .i32) : Vec Ideal S64x7 .f32 :=
  fun j => Ideal.div (poolSum X B ⟨(j 0).val, idx2_lt0 j⟩ ⟨(j 1).val, idx2_lt1 j⟩) (max (poolCount B ⟨(j 0).val, idx2_lt0 j⟩) 1)

end Cert.KernelIdeal.Hand

end
-- ==== Proof.KI.PoolKernel.lean ====
import proofs.«422210_j51213190037704_1_alg».proof.Proof.KI.PoolDefs
import proofs.«422210_j51213190037704_1_alg».proof.Proof.KI.PoolSpec
import Idealize.ShloMosaic.Lib.Pipeline.Value
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.ValueIdx

theorem word_eq_ofNat_iff (a : BitVec 32) (g : ℕ) (hg : g < 64) : a = BitVec.ofNat 32 g ↔ a.toInt = (g : ℤ) := by
  rw [← BitVec.toNat_inj, BitVec.toNat_ofNat, BitVec.toInt_eq_toNat_cond]
  have := a.isLt
  split <;> omega

theorem sitofp_bit (c : Bool) :
    (FloatOps.sitofp .f32 ((BitVec.ofBool c).setWidth 32) : Ideal .f32) = if c = true then (1 : EReal) else 0 := by
  cases c
  · show (((0 : ℤ) : ℝ) : EReal) = _; simp
  · show (((1 : ℤ) : ℝ) : EReal) = _; simp

/-- Entry `(r, g)` of the one-hot matrix is 1 where row `r` carries label `g`, else 0. -/
theorem onehot_apply (v4 : Vec Ideal S20000x1 .i32) (r : Fin 20000) (g : Fin 64) :
    k2_pay3 (F := Ideal) v4 (ix2 r g) = if (v4 (ix2 r (0 : Fin 1)) : BitVec 32).toInt = (g.val : ℤ) then (1 : EReal) else 0 := by
  have hb : broadcastTo S20000x64 (shapeCast S20000x1 v4 shapeCasts_S20000x1_S20000x1) broadcasts_S20000x1_S20000x64 (ix2 r g)
      = v4 (ix2 r (0 : Fin 1)) := by
    rw [shapeCast_self]
    exact broadcastTo_apply _ _ _ _ (fun a => match a with | ⟨0, _⟩ => rfl | ⟨1, _⟩ => rfl)
  have hi : iota .tc S20000x64 32 [1] iota_S20000x64_d1_w32 (ix2 r g) = BitVec.ofNat 32 g.val :=
    iota_single_apply _ _ _ _ _ _
  unfold k2_pay3
  rw [sitofp_apply, extui_apply]
  simp only [cmpi]
  rw [hb, hi]
  show FloatOps.sitofp .f32 (BitVec.setWidth 32 (BitVec.ofBool ((v4 (ix2 r (0 : Fin 1)) : BitVec 32) == BitVec.ofNat 32 g.val))) = _
  rw [sitofp_bit]
  simp only [beq_iff_eq, word_eq_ofNat_iff _ _ g.isLt]

/-- `Aᵀ·B` into a zero accumulator, at `(g, d)`: the sum over the rows `r` of `A[r, g] · B[r, d]`. -/
theorem matmulT_apply {R a b : ℕ} {φ₁ φ₂ : FTy} (w : DotDims.WF ⟨2, ![R, a]⟩ ⟨2, ![R, b]⟩ ⟨2, ![a, b]⟩ [0] [0] [1] [1] [] [])
    (prec : Option ContractPrecision) (A : FVec Ideal ⟨2, ![R, a]⟩ φ₁) (B : FVec Ideal ⟨2, ![R, b]⟩ φ₂) (g : Fin a) (d : Fin b) :
    FloatOps.matmul (⟨[0], [0], [1], [1], [], [], w⟩ : DotDims ⟨2, ![R, a]⟩ ⟨2, ![R, b]⟩ ⟨2, ![a, b]⟩) prec A B
        (constant ⟨2, ![a, b]⟩ .f32 0x00000000#32) (ix2 g d) = ∑ r : Fin R, A (ix2 r g) * B (ix2 r d) := by
  rw [Ideal.matmul_constant_zero_apply, ← Equiv.sum_comp (contrEquiv1 _ R rfl rfl).symm]
  refine Finset.sum_congr rfl fun r _ => ?_
  have c := contrEquiv1_symm_val (⟨[0], [0], [1], [1], [], [], w⟩ : DotDims ⟨2, ![R, a]⟩ ⟨2, ![R, b]⟩ ⟨2, ![a, b]⟩) R rfl rfl r
  congr 2 <;> refine Shape.idx_ext₂ ?_ rfl
  · exact (DotDims.lhsIdx_val_of_single _ rfl _ _).trans c
  · exact (DotDims.rhsIdx_val_of_single _ rfl _ _).trans c

/-- The one-hot matrix transposed times `Y`: for each label the sum of the rows of `Y` that carry it. -/
theorem onehotT_apply {b : ℕ} (w : DotDims.WF S20000x64 ⟨2, ![20000, b]⟩ ⟨2, ![64, b]⟩ [0] [0] [1] [1] [] [])
    (v4 : Vec Ideal S20000x1 .i32) (Y : FVec Ideal ⟨2, ![20000, b]⟩ .f32) (g : Fin 64) (d : Fin b) :
    FloatOps.matmul (⟨[0], [0], [1], [1], [], [], w⟩ : DotDims S20000x64 ⟨2, ![20000, b]⟩ ⟨2, ![64, b]⟩) none (k2_pay3 (F := Ideal) v4) Y
        (constant ⟨2, ![64, b]⟩ .f32 0x00000000#32) (ix2 g d)
      = ∑ r : Fin 20000, if (v4 (ix2 r (0 : Fin 1)) : BitVec 32).toInt = (g.val : ℤ) then (Y (ix2 r d) : EReal) else 0 := by
  rw [matmulT_apply]
  refine Finset.sum_congr rfl fun r _ => ?_
  rw [onehot_apply]
  split
  · exact one_mul _
  · exact zero_mul _

def tileSum (X : Vec Ideal S100000x7 .f32) (B : Vec Ideal S100000x1 .i32) (t : Fin 5) (g : Fin 64) (d : Fin 7) : EReal :=
  ∑ r : Fin 20000, if nodeLabel B (tileRow t r) = (g.val : ℤ) then (X (ix2 (tileRow t r) d) : EReal) else 0

def tileCount (B : Vec Ideal S100000x1 .i32) (t : Fin 5) (g : Fin 64) : EReal :=
  ∑ r : Fin 20000, if nodeLabel B (tileRow t r) = (g.val : ℤ) then (1 : EReal) else 0

theorem pay4_tile (X : Vec Ideal S100000x7 .f32) (B : Vec Ideal S100000x1 .i32) (t : Fin 5) (acc : FVec Ideal S64x7 .f32)
    (g : Fin 64) (d : Fin 7) :
    k2_pay4 (F := Ideal) (bTile B t) acc (xTile X t) (ix2 g d) = acc (ix2 g d) + tileSum X B t g d := by
  unfold k2_pay4
  rw [shapeCast_self, addf_apply]
  exact congrArg (acc (ix2 g d) + ·) (onehotT_apply _ (bTile B t) (xTile X t) g d)

theorem pay5_tile (B : Vec Ideal S100000x1 .i32) (t : Fin 5) (acc : FVec Ideal S64x1 .f32) (g : Fin 64) :
    k2_pay5 (F := Ideal) (bTile B t) acc (ix2 g (0 : Fin 1)) = acc (ix2 g (0 : Fin 1)) + tileCount B t g := by
  unfold k2_pay5
  rw [shapeCast_self, addf_apply]
  exact congrArg (acc (ix2 g (0 : Fin 1)) + ·) ((onehotT_apply _ (bTile B t) _ g (0 : Fin 1)).trans
    (Finset.sum_congr rfl fun r _ => if_congr Iff.rfl Ideal.ofBits_one_f32 rfl))

/-- After tile `n` the two accumulators hold the sums and the counts over tiles `0 … n`. -/
theorem poolAcc_eq (X : Vec Ideal S100000x7 .f32) (B : Vec Ideal S100000x1 .i32) (g : Fin 64) (d : Fin 7) :
    ∀ (n : ℕ) (h : n < 5), (poolAcc X B n h).1 (ix2 g d) = ∑ t : Fin (n + 1), tileSum X B ⟨t.val, by have := t.isLt; omega⟩ g d
      ∧ (poolAcc X B n h).2 (ix2 g (0 : Fin 1)) = ∑ t : Fin (n + 1), tileCount B ⟨t.val, by have := t.isLt; omega⟩ g
  | 0, h => by
    rw [Fin.sum_univ_one, Fin.sum_univ_one]
    refine ⟨(pay4_tile X B _ _ g d).trans ?_, (pay5_tile B _ _ g).trans ?_⟩
    · unfold k2_pay1; rw [shapeCast_self, broadcast_apply]; exact (congrArg (· + _) Ideal.ofBits_zero_f32).trans (zero_add _)
    · unfold k2_pay2; rw [shapeCast_self, broadcast_apply]; exact (congrArg (· + _) Ideal.ofBits_zero_f32).trans (zero_add _)
  | n + 1, h => by
    obtain ⟨h1, h2⟩ := poolAcc_eq X B g d n (Nat.lt_of_succ_lt h)
    refine ⟨?_, ?_⟩ <;> rw [Fin.sum_univ_castSucc]
    · show k2_pay4 _ _ _ _ = _
      rw [pay4_tile, h1]; rfl
    · show k2_pay5 _ _ _ = _
      rw [pay5_tile, h2]; rfl

def tileEquiv : Fin 5 × Fin 20000 ≃ Fin 100000 where
  toFun p := tileRow p.1 p.2
  invFun n := (⟨n.val / 20000, by have := n.isLt; omega⟩, ⟨n.val % 20000, by omega⟩)
  left_inv p := by
    obtain ⟨⟨t, ht⟩, ⟨r, hr⟩⟩ := p
    refine Prod.ext (Fin.ext ?_) (Fin.ext ?_)
    · show (20000 * t + r) / 20000 = t; omega
    · show (20000 * t + r) % 20000 = r; omega
  right_inv n := by
    refine Fin.ext ?_
    show 20000 * (n.val / 20000) + n.val % 20000 = n.val; omega

theorem sum_tiles (f : Fin 100000 → EReal) : ∑ t : Fin 5, ∑ r : Fin 20000, f (tileRow t r) = ∑ n : Fin 100000, f n := by
  rw [← Equiv.sum_comp tileEquiv f, Fintype.sum_prod_type]; rfl

theorem poolOut_eq_spec (X : Vec Ideal S100000x7 .f32) (B : Vec Ideal S100000x1 .i32) :
    poolOut (F := Ideal) X B = poolSpec X B := by
  funext j
  obtain ⟨g, d, rfl⟩ : ∃ (g : Fin 64) (d : Fin 7), j = ix2 g d := ⟨⟨(j 0).val, idx2_lt0 j⟩, ⟨(j 1).val, idx2_lt1 j⟩, eq_ix2 j⟩
  obtain ⟨h1, h2⟩ := poolAcc_eq X B g d 4 (by decide)
  unfold poolOut k2_pay6
  rw [divf_apply, broadcastTo_apply _ _ (ix2 g d) (ix2 g (0 : Fin 1)) (fun a => match a with | ⟨0, _⟩ => rfl | ⟨1, _⟩ => rfl),
    maximumf_apply, broadcast_apply, h1, h2]
  show Ideal.div (∑ t : Fin 5, tileSum X B t g d) (max (∑ t : Fin 5, tileCount B t g) (Ideal.ofBits .f32 0x3F800000#32))
    = Ideal.div (poolSum X B g d) (max (poolCount B g) 1)
  unfold tileSum tileCount poolSum poolCount
  rw [Ideal.ofBits_one_f32, sum_tiles (fun n => if nodeLabel B n = (g.val : ℤ) then (X (ix2 n d) : EReal) else 0),
    sum_tiles (fun n => if nodeLabel B n = (g.val : ℤ) then (1 : EReal) else 0)]

end Cert.KernelIdeal.Hand
end
-- ==== Proof.KI.PoolRef.lean ====
import proofs.«422210_j51213190037704_1_alg».proof.Proof.KI.PoolSpec
import proofs.«422210_j51213190037704_1_alg».proof.Proof.Gen.ReferenceIdeal
import Idealize.ShloMosaic.Lib.Pipeline.Value
import Idealize.ShloMosaic.Lib.ValueIdxRank1
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.ValueIdx

namespace PoolRef

/-- An update lands on `i` exactly when its start plus its window coordinate is `i` on every axis. -/
theorem resultIdx?_eq_some {s si u : Shape} (D : ScatterDims s si u) {w : ℕ} (j : u.Idx) (idx : IVec si w) (i : s.Idx) :
    D.resultIdx? j idx = some i ↔ ∀ a, D.start j idx a + D.window j a = ((i a).val : ℤ) := by
  unfold ScatterDims.resultIdx?
  split
  · rename_i h
    rw [Option.some.injEq]
    exact ⟨fun e a => by subst e; exact (Int.toNat_of_nonneg (h a).1).symm,
      fun e => funext fun a => Fin.ext (by show (D.start j idx a + D.window j a).toNat = _; rw [e a]; rfl)⟩
  · rename_i h
    exact ⟨fun e => (by cases e), fun e => (h fun a => by rw [e a]; exact ⟨Int.natCast_nonneg _, Int.ofNat_lt.2 (i a).isLt⟩).elim⟩

/-- On the index vector's axis a start index is read at its own component number. -/
theorem siIdx_ivd {s si u : Shape} (D : ScatterDims s si u) (j : u.Idx) (c) (b : Fin si.rank) (hb : b.val = D.indexVectorDim) :
    (D.siIdx j c b).val = c.val := by
  unfold ScatterDims.siIdx; rw [dif_pos hb]

abbrev d7 := Cert.ReferenceIdeal.scatter_S64x7_S100000x1_S100000x7_1_0_0_1

abbrev d1 := Cert.ReferenceIdeal.scatter_S64_S100000x1_S100000_n_0_0_1

theorem d7_siIdx (u : S100000x7.Idx) (k) : d7.siIdx u k = ix2 ⟨(u 0).val, idx2_lt0 u⟩ (0 : Fin 1) :=
  Shape.idx_ext₂ rfl ((siIdx_ivd d7 u k 1 rfl).trans (Nat.lt_one_iff.1 k.isLt))

theorem d1_siIdx (u : Cert.ReferenceIdeal.S100000.Idx) (k) : d1.siIdx u k = ix2 (⟨(u 0).val, (u 0).isLt⟩ : Fin 100000) (0 : Fin 1) :=
  Shape.idx_ext₂ rfl ((siIdx_ivd d1 u k 1 rfl).trans (Nat.lt_one_iff.1 k.isLt))

theorem d7_resultIdx {w : Nat} (u : S100000x7.Idx) (B : IVec S100000x1 w) (g : Fin 64) (j : Fin 7) :
    d7.resultIdx? u B = some (ix2 g j) ↔
      (B (ix2 ⟨(u 0).val, idx2_lt0 u⟩ (0 : Fin 1))).toInt = (g.val : Int) ∧ (u 1).val = j.val := by
  have s0 : d7.start u B 0 = (B (ix2 ⟨(u 0).val, idx2_lt0 u⟩ (0 : Fin 1))).toInt := by
    unfold ScatterDims.start; rw [dif_pos (by decide), d7_siIdx]
  have s1 : d7.start u B 1 = 0 := by unfold ScatterDims.start; rw [dif_neg (by decide)]
  have w0 : d7.window u 0 = 0 := by unfold ScatterDims.window; rw [dif_neg (by decide)]
  have w1 : d7.window u 1 = (u 1).val := by unfold ScatterDims.window; rw [dif_pos (by decide)]; rfl
  rw [resultIdx?_eq_some]
  constructor
  · intro h
    have h0 : d7.start u B 0 + (d7.window u 0 : Int) = (g.val : Int) := h 0
    have h1 : d7.start u B 1 + (d7.window u 1 : Int) = (j.val : Int) := h 1
    rw [s0, w0] at h0; rw [s1, w1] at h1
    exact ⟨by simpa using h0, by omega⟩
  · rintro ⟨e0, e1⟩ a
    match a with
    | ⟨0, _⟩ => show d7.start u B 0 + (d7.window u 0 : Int) = (g.val : Int); rw [s0, w0, e0]; simp
    | ⟨1, _⟩ => show d7.start u B 1 + (d7.window u 1 : Int) = (j.val : Int); rw [s1, w1, e1]; simp

theorem d1_resultIdx {w : Nat} (u : Cert.ReferenceIdeal.S100000.Idx) (B : IVec S100000x1 w) (g : Fin 64) :
    d1.resultIdx? u B = some (ix1 g) ↔
      (B (ix2 (⟨(u 0).val, (u 0).isLt⟩ : Fin 100000) (0 : Fin 1))).toInt = (g.val : Int) := by
  have s0 : d1.start u B 0 = (B (ix2 (⟨(u 0).val, (u 0).isLt⟩ : Fin 100000) (0 : Fin 1))).toInt := by
    unfold ScatterDims.start; rw [dif_pos (by decide), d1_siIdx]
  have w0 : d1.window u 0 = 0 := by unfold ScatterDims.window; rw [dif_neg (by decide)]
  rw [resultIdx?_eq_some]
  constructor
  · intro h
    have h0 : d1.start u B 0 + (d1.window u 0 : Int) = (g.val : Int) := h 0
    rw [s0, w0] at h0
    simpa using h0
  · intro e0 a
    match a with
    | ⟨0, _⟩ => show d1.start u B 0 + (d1.window u 0 : Int) = (g.val : Int); rw [s0, w0, e0]; simp

theorem scatter7_apply (Z : S64x7.Idx → EReal) (B : IVec S100000x1 32) (X : S100000x7.Idx → EReal) (g : Fin 64) (j : Fin 7) :
    Ideal.hostScatterAdd d7 Z B X (ix2 g j)
      = Z (ix2 g j) + ∑ r : Fin 100000, if (B (ix2 r (0 : Fin 1))).toInt = (g.val : Int) then X (ix2 r j) else 0 := by
  show Z (ix2 g j) + ∑ u ∈ Finset.univ.filter (fun u => d7.resultIdx? u B = some (ix2 g j)), X u = _
  rw [Finset.sum_filter, sum_idx2]
  simp only [d7_resultIdx]
  refine congrArg (Z (ix2 g j) + ·) (Finset.sum_congr rfl fun r _ => ?_)
  by_cases hb : (B (ix2 r (0 : Fin 1))).toInt = (g.val : Int)
  · simp only [hb, true_and]
    show (∑ x : Fin 7, if x.val = j.val then X (ix2 r x) else 0) = _
    simp only [Fin.val_inj, Finset.sum_ite_eq', Finset.mem_univ, if_true]
  · simp only [hb, false_and, if_false, Finset.sum_const_zero]

theorem scatter1_apply (Z : Cert.ReferenceIdeal.S64.Idx → EReal) (B : IVec S100000x1 32) (U : Cert.ReferenceIdeal.S100000.Idx → EReal) (g : Fin 64) :
    Ideal.hostScatterAdd d1 Z B U (ix1 g)
      = Z (ix1 g) + ∑ r : Fin 100000, if (B (ix2 r (0 : Fin 1))).toInt = (g.val : Int) then U (ix1 r) else 0 := by
  show Z (ix1 g) + ∑ u ∈ Finset.univ.filter (fun u => d1.resultIdx? u B = some (ix1 g)), U u = _
  rw [Finset.sum_filter, ← Equiv.sum_comp idxEquiv1.symm]
  simp only [d1_resultIdx]
  rfl

end PoolRef

def refPool (X : Vec Ideal S100000x7 .f32) (B : Vec Ideal S100000x1 .i32) : Vec Ideal S64x7 .f32 :=
  Host.divf
    (Host.scatterAdd Cert.ReferenceIdeal.scatter_S64x7_S100000x1_S100000x7_1_0_0_1
      (broadcastInDim Cert.ReferenceIdeal.S64x7 ![] Cert.ReferenceIdeal.Facts₀.bcast_S_S64x7 (constant (F := Ideal) Cert.ReferenceIdeal.S_ .f32 0x00000000#32)) B X)
    (broadcastInDim Cert.ReferenceIdeal.S64x7 ![0, 1] Cert.ReferenceIdeal.Facts₀.bcast_S64x1_S64x7_0_1
      (broadcastInDim Cert.ReferenceIdeal.S64x1 ![0] Cert.ReferenceIdeal.Facts₀.bcast_S64_S64x1_0
        (maximumf
          (Host.scatterAdd Cert.ReferenceIdeal.scatter_S64_S100000x1_S100000_n_0_0_1
            (broadcastInDim Cert.ReferenceIdeal.S64 ![] Cert.ReferenceIdeal.Facts₀.bcast_S_S64 (constant (F := Ideal) Cert.ReferenceIdeal.S_ .f32 0x00000000#32)) B
            (broadcastInDim Cert.ReferenceIdeal.S100000 ![] Cert.ReferenceIdeal.Facts₀.bcast_S_S100000 (constant (F := Ideal) Cert.ReferenceIdeal.S_ .f32 0x3F800000#32)))
          (broadcastInDim Cert.ReferenceIdeal.S64 ![] Cert.ReferenceIdeal.Facts₀.bcast_S_S64 (constant (F := Ideal) Cert.ReferenceIdeal.S_ .f32 0x3F800000#32)))))

open PoolRef in
/-- The scatters are the segment sums and counts; every broadcast reads its one source entry. -/
theorem refPool_eq_spec (X : Vec Ideal S100000x7 .f32) (B : Vec Ideal S100000x1 .i32) : refPool X B = poolSpec X B := by
  funext j
  obtain ⟨g, d, rfl⟩ : ∃ (g : Fin 64) (d : Fin 7), j = ix2 g d := ⟨⟨(j 0).val, idx2_lt0 j⟩, ⟨(j 1).val, idx2_lt1 j⟩, eq_ix2 j⟩
  unfold refPool poolSpec
  refine (hostDivf_apply _ _ _).trans (congrArg₂ Ideal.div ?_ ?_)
  · exact (scatter7_apply _ B X g d).trans (by rw [broadcastInDim_scalar_apply, constant_apply, Ideal.ofBits_zero_f32, zero_add]; rfl)
  · rw [broadcastInDim_apply _ Cert.ReferenceIdeal.Facts₀.bcast_S64x1_S64x7_0_1 _ (ix2 g d) (ix2 g (0 : Fin 1)) (fun a => match a with
        | ⟨0, _⟩ => by show g.val = if (64 : Nat) = 1 then 0 else g.val; rw [if_neg (by decide)]
        | ⟨1, _⟩ => (if_pos rfl).symm),
      broadcastInDim_apply _ Cert.ReferenceIdeal.Facts₀.bcast_S64_S64x1_0 _ (ix2 g (0 : Fin 1)) (ix1 g) (fun a => match a with
        | ⟨0, _⟩ => by show g.val = if (64 : Nat) = 1 then 0 else g.val; rw [if_neg (by decide)]),
      maximumf_apply, broadcastInDim_scalar_apply, constant_apply, Ideal.ofBits_one_f32]
    refine congrArg (max · 1) ((scatter1_apply _ B _ g).trans ?_)
    rw [broadcastInDim_scalar_apply, constant_apply, Ideal.ofBits_zero_f32, zero_add]
    unfold poolCount nodeLabel
    refine Finset.sum_congr rfl fun r _ => ?_
    rw [broadcastInDim_scalar_apply, constant_apply, Ideal.ofBits_one_f32]

end Cert.KernelIdeal.Hand

end
-- ==== Proof.KI.Pool.lean ====
import proofs.«422210_j51213190037704_1_alg».proof.Proof.KI.PoolKernel
import proofs.«422210_j51213190037704_1_alg».proof.Proof.KI.PoolRef

noncomputable section

namespace Cert.KernelIdeal.Hand

open Cert.KernelIdeal Cert.KernelIdeal.Gen
open Idealize.ShloMosaic Idealize.ShloMosaic.ValueIdx

theorem pool_eq (X : Vec Ideal S100000x7 .f32) (B : Vec Ideal S100000x1 .i32) :
    poolOut (F := Ideal) X B = refPool X B := by
  rw [poolOut_eq_spec, refPool_eq_spec]

end Cert.KernelIdeal.Hand

end
-- ==== Proof.KI.Result.lean ====
import proofs.«422210_j51213190037704_1_alg».proof.Proof.KI.Stages
import proofs.«422210_j51213190037704_1_alg».proof.Proof.KI.Val0
import proofs.«422210_j51213190037704_1_alg».proof.Proof.KI.Val1
import proofs.«422210_j51213190037704_1_alg».proof.Proof.KI.Val3
import proofs.«422210_j51213190037704_1_alg».proof.Proof.KI.Val4
import proofs.«422210_j51213190037704_1_alg».proof.Proof.KI.Val5
import proofs.«422210_j51213190037704_1_alg».proof.Proof.KI.Val6
import proofs.«422210_j51213190037704_1_alg».proof.Proof.KI.Val7
import proofs.«422210_j51213190037704_1_alg».proof.Proof.KI.Val2
import proofs.«422210_j51213190037704_1_alg».proof.Proof.KI.Pool

noncomputable section

namespace Cert.KernelIdeal.Hand

open Cert.KernelIdeal Cert.KernelIdeal.Gen
open Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-- What a region finds in a buffer that held `x` at boundary `i` and that no item up to the region's entry writes. -/
theorem at_from {b : Ref sig .tc} {x : (Proc.devRef (τ := τ) .tc b).ty.Contents (Elt Ideal)} (i j : ℕ) (hx : Wn m ρ i c (Proc.devRef .tc b) = x)
    (h : ∀ k < j, i ≤ k → b ∉ written k) (hij : i ≤ j := by decide) : atTc (Wn m ρ j) c b = x :=
  (Wn_same m ρ c b i j h hij).trans hx

theorem at_arg (j : ℕ) (b : Ref sig .tc) (h : ∀ k < j, 0 ≤ k → b ∉ written k) : atTc (Wn m ρ j) c b = arg m c b :=
  arg_at m ρ c b j h

/-- Region 0 leaves the first dense product `x · W1`. -/
theorem xw1_eq : Wn m ρ 2 c (Proc.devRef .tc main_v29) = val_main_v11 (F := Ideal) (arg m c main_arg0) (arg m c main_arg3) := by
  refine (exitOf_arr (Wn m ρ 1 c) _ launch0.win.arr_inj 2).trans ((val0 (atTc (Wn m ρ 1)) c).trans ?_)
  rw [at_arg m ρ c 1 main_arg0 (by decide), at_arg m ρ c 1 main_arg3 (by decide)]; rfl

/-- Region 1 leaves the first hidden layer: aggregated messages plus the self-loop term plus the bias, clipped at zero. -/
theorem h1_eq : Wn m ρ 4 c (Proc.devRef .tc main_v43) = val_main_v48 (F := Ideal) (arg m c main_arg0) (arg m c main_arg1) (arg m c main_arg3) (arg m c main_arg4) := by
  refine (exitOf_arr (Wn m ρ 3 c) _ launch1.win.arr_inj 4).trans ((val1 (atTc (Wn m ρ 3)) c).trans ?_)
  rw [show atTc (Wn m ρ 3) c main_v41 = _ from W3_v41 m ρ c (xw1_eq m ρ c), at_from m ρ c 2 3 (xw1_eq m ρ c) (by decide),
    at_from m ρ c 1 3 (W1_v12 m ρ c) (by decide), show atTc (Wn m ρ 3) c main_v42 = _ from W3_v42 m ρ c]; rfl

/-- Region 2 leaves the per-graph mean of the node features. -/
theorem pooled_eq : Wn m ρ 6 c (Proc.devRef .tc main_v45) = val_main_v60 (F := Ideal) (arg m c main_arg0) (arg m c main_arg2) := by
  refine (exitOf_arr (Wn m ρ 5 c) _ launch2.win.arr_inj 2).trans ((val2_chain (atTc (Wn m ρ 5)) c).trans ?_)
  unfold result2
  rw [at_arg m ρ c 5 main_arg0 (by decide), show atTc (Wn m ρ 5) c main_v44 = _ from W5_v44 m ρ c, pool_eq]
  rfl

/-- Region 3 leaves the mean head's dense product. -/
theorem mupre_eq : Wn m ρ 7 c (Proc.devRef .tc main_v46) = val_main_v61 (F := Ideal) (arg m c main_arg0) (arg m c main_arg1) (arg m c main_arg3) (arg m c main_arg4) (arg m c main_arg5) := by
  refine (exitOf_arr (Wn m ρ 6 c) _ launch3.win.arr_inj 2).trans ((val3 (atTc (Wn m ρ 6)) c).trans ?_)
  rw [at_from m ρ c 4 6 (h1_eq m ρ c) (by decide), at_arg m ρ c 6 main_arg5 (by decide)]; rfl

/-- Region 4 leaves `mu`. -/
theorem mu_eq : Wn m ρ 9 c (Proc.devRef .tc main_v60) = val_main_v98 (F := Ideal) (arg m c main_arg0) (arg m c main_arg1) (arg m c main_arg3) (arg m c main_arg4) (arg m c main_arg5) (arg m c main_arg6) := by
  refine (exitOf_arr (Wn m ρ 8 c) _ launch4.win.arr_inj 4).trans ((val4 (atTc (Wn m ρ 8)) c).trans ?_)
  rw [show atTc (Wn m ρ 8) c main_v58 = _ from W8_v58 m ρ c (mupre_eq m ρ c), at_from m ρ c 7 8 (mupre_eq m ρ c) (by decide),
    at_from m ρ c 1 8 ((W1_v12 m ρ c).trans (congrFun (val_main_v91_eq (F := Ideal)).symm _)) (by decide),
    show atTc (Wn m ρ 8) c main_v59 = _ from W8_v59 m ρ c]; rfl

/-- Region 5 leaves the log-variance head's dense product. -/
theorem lvpre_eq : Wn m ρ 10 c (Proc.devRef .tc main_v61) = val_main_v99 (F := Ideal) (arg m c main_arg0) (arg m c main_arg1) (arg m c main_arg3) (arg m c main_arg4) (arg m c main_arg7) := by
  refine (exitOf_arr (Wn m ρ 9 c) _ launch5.win.arr_inj 2).trans ((val5 (atTc (Wn m ρ 9)) c).trans ?_)
  rw [at_from m ρ c 4 9 (h1_eq m ρ c) (by decide), at_arg m ρ c 9 main_arg7 (by decide)]; rfl

/-- Region 6 leaves `logvar`. -/
theorem lv_eq : Wn m ρ 12 c (Proc.devRef .tc main_v75) = val_main_v136 (F := Ideal) (arg m c main_arg0) (arg m c main_arg1) (arg m c main_arg3) (arg m c main_arg4) (arg m c main_arg7) (arg m c main_arg8) := by
  refine (exitOf_arr (Wn m ρ 11 c) _ launch6.win.arr_inj 4).trans ((val6 (atTc (Wn m ρ 11)) c).trans ?_)
  rw [show atTc (Wn m ρ 11) c main_v73 = _ from W11_v73 m ρ c (lvpre_eq m ρ c), at_from m ρ c 10 11 (lvpre_eq m ρ c) (by decide),
    at_from m ρ c 1 11 ((W1_v12 m ρ c).trans (congrFun (val_main_v129_eq (F := Ideal)).symm _)) (by decide),
    show atTc (Wn m ρ 11) c main_v74 = _ from W11_v74 m ρ c]; rfl

/-- Region 7 leaves the sample `eps · exp(logvar) + mu`. -/
theorem z_eq : Wn m ρ 13 c (Proc.devRef .tc main_v76) = val_main_v139 (F := Ideal) (arg m c main_arg0) (arg m c main_arg1) (arg m c main_arg3) (arg m c main_arg4) (arg m c main_arg5) (arg m c main_arg6) (arg m c main_arg7) (arg m c main_arg8) (arg m c main_arg9) := by
  refine (exitOf_arr (Wn m ρ 12 c) _ launch7.win.arr_inj 3).trans ((val7 (atTc (Wn m ρ 12)) c).trans ?_)
  rw [at_arg m ρ c 12 main_arg9 (by decide), show atTc (Wn m ρ 12) c main_v75 = _ from lv_eq m ρ c, at_from m ρ c 9 12 (mu_eq m ρ c) (by decide)]; rfl

end Cert.KernelIdeal.Hand

end
-- ==== Proof.Claims.lean ====
import proofs.«422210_j51213190037704_1_alg».proof.Proof.K.Run
import proofs.«422210_j51213190037704_1_alg».proof.Proof.KI.Run
import proofs.«422210_j51213190037704_1_alg».proof.Proof.KI.Result
import proofs.«422210_j51213190037704_1_alg».proof.Proof.Gen.ReferenceIdeal.Run

noncomputable section

namespace Cert.Proof.Claims

open Cert.KernelIdeal Cert.KernelIdeal.Gen Cert.KernelIdeal.Hand
open Cert.ReferenceIdeal.Read
open Idealize.ShloMosaic Idealize.ShloMosaic.TcCoe Idealize.SL.Sem

/-- The reference has no kernel: its frame is its generated run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both programs run from memories agreeing on the arguments; the kernel's four results are the reference's stages of
    the launch arguments, which the reference's run leaves in its own results. -/
theorem algebraic : Cert.algebraic_KernelIdeal_ReferenceIdeal := by
  intro m ρ m' ρ' _ hagree
  refine ⟨fun c => val_main_v139 (F := Ideal) (arg m c main_arg0) (arg m c main_arg1) (arg m c main_arg3) (arg m c main_arg4) (arg m c main_arg5) (arg m c main_arg6) (arg m c main_arg7) (arg m c main_arg8) (arg m c main_arg9),
    fun c => val_main_v60 (F := Ideal) (arg m c main_arg0) (arg m c main_arg2),
    fun c => val_main_v98 (F := Ideal) (arg m c main_arg0) (arg m c main_arg1) (arg m c main_arg3) (arg m c main_arg4) (arg m c main_arg5) (arg m c main_arg6),
    fun c => val_main_v136 (F := Ideal) (arg m c main_arg0) (arg m c main_arg1) (arg m c main_arg3) (arg m c main_arg4) (arg m c main_arg7) (arg m c main_arg8), ?_, ?_⟩
  · exact (θ_run defs _ _).mono (fun r h c =>
      ⟨(read_at (h c) main_v76 (by decide)).trans (z_eq m ρ c),
       (read_at (h c) main_v45 (by decide)).trans ((Wn_same m ρ c main_v45 6 13 (by decide) (by decide)).trans (pooled_eq m ρ c)),
       (read_at (h c) main_v60 (by decide)).trans ((Wn_same m ρ c main_v60 9 13 (by decide) (by decide)).trans (mu_eq m ρ c)),
       (read_at (h c) main_v75 (by decide)).trans ((Wn_same m ρ c main_v75 12 13 (by decide) (by decide)).trans (lv_eq m ρ c)),
       kept (h c) main_arg0 (by decide) (by decide), kept (h c) main_arg1 (by decide) (by decide),
       kept (h c) main_arg2 (by decide) (by decide), kept (h c) main_arg3 (by decide) (by decide),
       kept (h c) main_arg4 (by decide) (by decide), kept (h c) main_arg5 (by decide) (by decide),
       kept (h c) main_arg6 (by decide) (by decide), kept (h c) main_arg7 (by decide) (by decide),
       kept (h c) main_arg8 (by decide) (by decide), kept (h c) main_arg9 (by decide) (by decide)⟩) (run_all m ρ)
  · refine (θ_run Cert.ReferenceIdeal.defs _ _).mono (fun r h c => ?_) (Cert.ReferenceIdeal.Value.run (F := Ideal) m' ρ')
    obtain ⟨e0, e1, e2, e3, e4, e5, e6, e7, e8, e9⟩ := hagree c
    obtain ⟨h139, h60, h98, h136, hargs⟩ := h c
    refine ⟨h139.trans ?_, h60.trans ?_, h98.trans ?_, h136.trans ?_, hargs⟩
    · rw [val_main_v139_eq, e0, e1, e3, e4, e5, e6, e7, e8, e9]
    · rw [e0, e2]; exact val_main_v60_eq _ _
    · rw [val_main_v98_eq, e0, e1, e3, e4, e5, e6]
    · rw [val_main_v136_eq, e0, e1, e3, e4, e7, e8]

end Cert.Proof.Claims

end
-- ==== Proof.lean ====
import proofs.«422210_j51213190037704_1_alg».proof.Proof.Claims

namespace Cert.Proof

/-- The certificate of the graph-convolution encoder against its jnp reference. -/
theorem claim : Cert.Claim :=
  ⟨Cert.Kernel.Gen.facts, Cert.KernelIdeal.Gen.facts, Cert.ReferenceIdeal.Gen.facts, Cert.Pre_finite_inputs.Gen.facts,
    Cert.Kernel.Hand.frame, Cert.KernelIdeal.Hand.frame, Claims.frame_ri, trivial, Claims.algebraic⟩

end Cert.Proof
